-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v72)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v46)) (v4 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v46) = v3 c
          ∧ r.2.mem ((c.tc : Thread Cert.KernelIdeal.nD Cert.KernelIdeal.τ).loc Cert.KernelIdeal.main_v62) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S512x128 : Shape := ⟨2, ![512, 128]⟩
abbrev S5000x512 : Shape := ⟨2, ![5000, 512]⟩
abbrev S512x1 : Shape := ⟨2, ![512, 1]⟩

abbrev nBuf : Space → Nat
  | .hbm => 100
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .bf16⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x128, .bf16⟩
  | .hbm, ⟨41, _⟩ => ⟨S850000x128, .f32⟩
  | .hbm, ⟨42, _⟩ => ⟨S_, .f32⟩
  | .hbm, ⟨43, _⟩ => ⟨S50000x128, .f32⟩
  | .hbm, ⟨44, _⟩ => ⟨S850000x1, .i32⟩
  | .hbm, ⟨45, _⟩ => ⟨S50000x128, .f32⟩
  | .hbm, ⟨46, _⟩ => ⟨S50000x1, .f32⟩
  | .hbm, ⟨47, _⟩ => ⟨S1x128, .f32⟩
  | .hbm, ⟨48, _⟩ => ⟨S50000x128, .f32⟩
  | .hbm, ⟨49, _⟩ => ⟨S50000x1, .f32⟩
  | .hbm, ⟨50, _⟩ => ⟨S50000x128, .bf16⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .bf16⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S50000x1, .f32⟩
  | .hbm, ⟨66, _⟩ => ⟨S1x128, .f32⟩
  | .hbm, ⟨67, _⟩ => ⟨S50000x128, .f32⟩
  | .hbm, ⟨68, _⟩ => ⟨S50000x1, .f32⟩
  | .hbm, ⟨69, _⟩ => ⟨S50000x128, .bf16⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .bf16⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S50000x1, .f32⟩
  | .hbm, ⟨85, _⟩ => ⟨S1x128, .f32⟩
  | .hbm, ⟨86, _⟩ => ⟨S50000x128, .f32⟩
  | .hbm, ⟨87, _⟩ => ⟨S50000x1, .i32⟩
  | .hbm, ⟨88, _⟩ => ⟨S512x128, .f32⟩
  | .hbm, ⟨89, _⟩ => ⟨S_, .f32⟩
  | .hbm, ⟨90, _⟩ => ⟨S50000x1, .f32⟩
  | .hbm, ⟨91, _⟩ => ⟨S_, .f32⟩
  | .hbm, ⟨92, _⟩ => ⟨S512x1, .f32⟩
  | .hbm, ⟨93, _⟩ => ⟨S50000x1, .i32⟩
  | .hbm, ⟨94, _⟩ => ⟨S512x1, .f32⟩
  | .hbm, ⟨95, _⟩ => ⟨S_, .f32⟩
  | .hbm, ⟨96, _⟩ => ⟨S512x1, .f32⟩
  | .hbm, ⟨97, _⟩ => ⟨S512x1, .f32⟩
  | .hbm, ⟨98, _⟩ => ⟨S512x128, .f32⟩
  | .hbm, ⟨99, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .bf16⟩
  | .local _ .vmem, ⟨20, _⟩ => ⟨S5000x128, .bf16⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x1, .f32⟩
  | .local _ .vmem, ⟨32, _⟩ => ⟨S5000x1, .f32⟩
  | .local _ .vmem, ⟨33, _⟩ => ⟨S5000x128, .bf16⟩
  | .local _ .vmem, ⟨34, _⟩ => ⟨S5000x128, .bf16⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x1, .i32⟩
  | .local _ .vmem, ⟨45, _⟩ => ⟨S5000x1, .i32⟩
  | .local _ .vmem, ⟨46, _⟩ => ⟨S512x128, .f32⟩
  | .local _ .vmem, ⟨47, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_scratch0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S5000x512_d1_w32 : S5000x512.Iotas .tc 32 [1]
  broadcasts_S5000x1_S5000x512 : S5000x1.Broadcasts S5000x512
  natLt_1_32 : 1 < 32
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S512x1_S512x128_0_1 : S512x1.BroadcastsInDim S512x128 (![0, 1] : Fin 2 → Fin S512x128.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x512_S5000x128_S512x128_0_0_1_1_n_n_wf : DotDims.WF S5000x512 S5000x128 S512x128 [0] [0] [1] [1] [] []
  scatter_S512x1_S50000x1_S50000x1_1_0_0_1_wf : ScatterDims.WF S512x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .bf16 = 32 ∨ (Rect.block (s := S50000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .bf16 = 32 ∨ (Rect.block (s := S50000x128) S5000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .i32 = 32 ∨ (Rect.block (s := S50000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v48) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v59) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v62) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v64) S512x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S512x1 : Shape := ⟨2, ![512, 1]⟩
abbrev S512x128 : Shape := ⟨2, ![512, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000x1, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x128, .f32⟩
  | .hbm, ⟨100, _⟩ => ⟨S850000x128, .f32⟩
  | .hbm, ⟨101, _⟩ => ⟨S850000x128, .f32⟩
  | .hbm, ⟨102, _⟩ => ⟨S_, .f32⟩
  | .hbm, ⟨103, _⟩ => ⟨S50000x128, .f32⟩
  | .hbm, ⟨104, _⟩ => ⟨S850000x1, .i32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S50000x1, .f32⟩
  | .hbm, ⟨112, _⟩ => ⟨S_, .f32⟩
  | .hbm, ⟨113, _⟩ => ⟨S512x1, .f32⟩
  | .hbm, ⟨114, _⟩ => ⟨S50000x1, .i32⟩
  | .hbm, ⟨115, _⟩ => ⟨S512x1, .f32⟩
  | .hbm, ⟨116, _⟩ => ⟨S_, .f32⟩
  | .hbm, ⟨117, _⟩ => ⟨S512x128, .f32⟩
  | .hbm, ⟨118, _⟩ => ⟨S50000x1, .i32⟩
  | .hbm, ⟨119, _⟩ => ⟨S512x128, .f32⟩
  | .hbm, ⟨120, _⟩ => ⟨S_, .f32⟩
  | .hbm, ⟨121, _⟩ => ⟨S512x1, .f32⟩
  | .hbm, ⟨122, _⟩ => ⟨S512x1, .f32⟩
  | .hbm, ⟨123, _⟩ => ⟨S512x128, .f32⟩
  | .hbm, ⟨124, _⟩ => ⟨S512x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x1_S50000x1_S50000x1_1_0_0_1_wf : ScatterDims.WF S512x1 S50000x1 S50000x1 [1] [0] [0] 1
  scatter_S512x128_S50000x1_S50000x128_1_0_0_1_wf : ScatterDims.WF S512x128 S50000x1 S50000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf

class Facts : Prop extends Facts₀ where

variable [Facts]
-- ==== Proof.KI.Reg0.lean ====
import proofs.«414499_j137438954180_2_alg».proof.Proof.Gen.KernelIdeal.Launch
import proofs.«414499_j137438954180_2_alg».proof.Proof.Gen.KernelIdeal.Skeleton
import proofs.«414499_j137438954180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_d : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .bf16 :=
  View.canon [⟨r0_x, k0_pay1 (View.ld x0 r0_x) (View.ld x1 r0_w) (View.ld x2 r0_d)⟩]

theorem cover0_3 (p0 : Vec F S5000x128 .bf16) (y : S5000x128.Idx) :
    ∃ pc ∈ ([⟨r0_x, p0⟩] : List (View.Piece (Elt F) S5000x128 .bf16)), y ∈ pc.1.set :=
  View.cover_of_tiled [⟨r0_x, p0⟩] S5000x128.size (by rfl) y

set_option maxHeartbeats 1000000 in
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«414499_j137438954180_2_alg».proof.Proof.Gen.KernelIdeal.Launch
import proofs.«414499_j137438954180_2_alg».proof.Proof.Gen.KernelIdeal.Skeleton
import proofs.«414499_j137438954180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0

def out1_3 (x0 : Vec F S5000x128 .f32) (x1 : Vec F S5000x1 .f32) (x2 : Vec F S1x128 .f32) : Vec F S5000x128 .f32 :=
  View.canon [⟨r1_x, k1_pay1 (View.ld x0 r1_x) (View.ld x1 r1_d) (View.ld x2 r1_b)⟩]

theorem cover1_3 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bias_tanh_scale_kernel i arg1 harg1 arg2 harg2 arg3 harg3 arg4 harg4) K := by
  simp only [cc1__bias_tanh_scale_kernel_eq_skeleton]; unfold cc1__bias_tanh_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«414499_j137438954180_2_alg».proof.Proof.Gen.KernelIdeal.Launch
import proofs.«414499_j137438954180_2_alg».proof.Proof.Gen.KernelIdeal.Skeleton
import proofs.«414499_j137438954180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_d : Rect S5000x1 := Rect.unit (s := S5000x1) ![0, 0] S5000x1.size inb_S5000x1_S5000x1_0_0

def out2_3 (x0 : Vec F S5000x128 .f32) (x1 : Vec F S128x128 .f32) (x2 : Vec F S5000x1 .f32) : Vec F S5000x128 .bf16 :=
  View.canon [⟨r2_x, k2_pay1 (View.ld x0 r2_x) (View.ld x1 r2_w) (View.ld x2 r2_d)⟩]

theorem cover2_3 (p0 : Vec F S5000x128 .bf16) (y : S5000x128.Idx) :
    ∃ pc ∈ ([⟨r2_x, p0⟩] : List (View.Piece (Elt F) S5000x128 .bf16)), y ∈ pc.1.set :=
  View.cover_of_tiled [⟨r2_x, p0⟩] S5000x128.size (by rfl) y

set_option maxHeartbeats 1000000 in
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_scale_kernel i arg1 harg1 arg2 harg2 arg3 harg3 arg4 harg4) K := by
  simp only [cc2__matmul_scale_kernel_eq_skeleton]; unfold cc2__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«414499_j137438954180_2_alg».proof.Proof.Gen.KernelIdeal.Launch
import proofs.«414499_j137438954180_2_alg».proof.Proof.Gen.KernelIdeal.Skeleton
import proofs.«414499_j137438954180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S1x128 := Rect.unit (s := S1x128) ![0, 0] S1x128.size inb_S1x128_S1x128_0_0

def out3_3 (x0 : Vec F S5000x128 .f32) (x1 : Vec F S5000x1 .f32) (x2 : Vec F S1x128 .f32) : Vec F S5000x128 .f32 :=
  View.canon [⟨r3_x, k3_pay1 (View.ld x0 r3_x) (View.ld x1 r3_d) (View.ld x2 r3_b)⟩]

theorem cover3_3 (p0 : Vec F S5000x128 .f32) (y : S5000x128.Idx) :
    ∃ pc ∈ ([⟨r3_x, p0⟩] : List (View.Piece (Elt F) S5000x128 .f32)), y ∈ pc.1.set :=
  View.cover_of_tiled [⟨r3_x, p0⟩] S5000x128.size (by rfl) y

set_option maxHeartbeats 1000000 in
theorem sound_kernel3 (c : Dev nD) (E : Set ℕ) (i : grid3.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__bias_tanh_scale_kernel i arg1 harg1 arg2 harg2 arg3 harg3 arg4 harg4) K := by
  simp only [cc3__bias_tanh_scale_kernel_eq_skeleton]; unfold cc3__bias_tanh_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«414499_j137438954180_2_alg».proof.Proof.Gen.KernelIdeal.Launch
import proofs.«414499_j137438954180_2_alg».proof.Proof.Gen.KernelIdeal.Skeleton
import proofs.«414499_j137438954180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S5000x128 := Rect.unit (s := S5000x128) ![0, 0] S5000x128.size inb_S5000x128_S5000x128_0_0
abbrev r4_w : Rect S128x128 := Rect.unit (s := S128x128) ![0, 0] S128x128.size inb_S128x128_S128x128_0_0
abbrev r4_d : Rect S5000x1 := Rect.unit (s := S5000x1) ![0, 0] S5000x1.size inb_S5000x1_S5000x1_0_0

def out4_3 (x0 : Vec F S5000x128 .f32) (x1 : Vec F S128x128 .f32) (x2 : Vec F S5000x1 .f32) : Vec F S5000x128 .bf16 :=
  View.canon [⟨r4_x, k4_pay1 (View.ld x0 r4_x) (View.ld x1 r4_w) (View.ld x2 r4_d)⟩]

theorem cover4_3 (p0 : Vec F S5000x128 .bf16) (y : S5000x128.Idx) :
    ∃ pc ∈ ([⟨r4_x, p0⟩] : List (View.Piece (Elt F) S5000x128 .bf16)), y ∈ pc.1.set :=
  View.cover_of_tiled [⟨r4_x, p0⟩] S5000x128.size (by rfl) y

set_option maxHeartbeats 1000000 in
theorem sound_kernel4 (c : Dev nD) (E : Set ℕ) (i : grid4.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__matmul_scale_kernel i arg1 harg1 arg2 harg2 arg3 harg3 arg4 harg4) K := by
  simp only [cc4__matmul_scale_kernel_eq_skeleton]; unfold cc4__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«414499_j137438954180_2_alg».proof.Proof.Gen.KernelIdeal.Launch
import proofs.«414499_j137438954180_2_alg».proof.Proof.Gen.KernelIdeal.Skeleton
import proofs.«414499_j137438954180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S5000x128 := Rect.unit (s := S5000x128) ![0, 0] S5000x128.size inb_S5000x128_S5000x128_0_0
abbrev r5_d : Rect S5000x1 := Rect.unit (s := S5000x1) ![0, 0] S5000x1.size inb_S5000x1_S5000x1_0_0
abbrev r5_b : Rect S1x128 := Rect.unit (s := S1x128) ![0, 0] S1x128.size inb_S1x128_S1x128_0_0

def out5_3 (x0 : Vec F S5000x128 .f32) (x1 : Vec F S5000x1 .f32) (x2 : Vec F S1x128 .f32) : Vec F S5000x128 .f32 :=
  View.canon [⟨r5_x, k5_pay1 (View.ld x0 r5_x) (View.ld x1 r5_d) (View.ld x2 r5_b)⟩]

theorem cover5_3 (p0 : Vec F S5000x128 .f32) (y : S5000x128.Idx) :
    ∃ pc ∈ ([⟨r5_x, p0⟩] : List (View.Piece (Elt F) S5000x128 .f32)), y ∈ pc.1.set :=
  View.cover_of_tiled [⟨r5_x, p0⟩] S5000x128.size (by rfl) y

set_option maxHeartbeats 1000000 in
theorem sound_kernel5 (c : Dev nD) (E : Set ℕ) (i : grid5.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S5000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__bias_tanh_scale_kernel i arg1 harg1 arg2 harg2 arg3 harg3 arg4 harg4) K := by
  simp only [cc5__bias_tanh_scale_kernel_eq_skeleton]; unfold cc5__bias_tanh_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«414499_j137438954180_2_alg».proof.Proof.Gen.KernelIdeal.Launch
import proofs.«414499_j137438954180_2_alg».proof.Proof.Gen.KernelIdeal.Skeleton
import proofs.«414499_j137438954180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond6_0 (i : grid6.Coords) : Prop :=
  Scalar.cmpi .ne (Scalar.extui (Scalar.cmpi .eq (BitVec.ofNat 32 (i 0).val) 0#32)) 0#32 = 1#1
abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 9 :=
  (by decide +kernel : ∀ t : Fin grid6.N, cond6_1 (grid6.coords t) ↔ t.val = 9)

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
theorem liveAt6_2 : ∀ t : Fin cfg6.N, cond6_1 (grid6.coords t) → cfg6.idle 2 (grid6.coords t) = false := by decide +kernel

theorem off6 : (![0, 0] : Fin 2 → ℕ) = fun _ => 0 := by funext a; fin_cases a <;> rfl

abbrev r6_a : Rect S512x128 := Rect.unit (s := S512x128) ![0, 0] S512x128.size inb_S512x128_S512x128_0_0

theorem cover6 (p0 : Vec F S512x128 .f32) (L : List (View.Piece (Elt F) S512x128 .f32)) (y : S512x128.Idx) :
    ∃ pc ∈ ((⟨r6_a, p0⟩ : View.Piece (Elt F) S512x128 .f32) :: L), y ∈ pc.1.set :=
  ⟨_, List.mem_cons_self, View.mem_set_unit_zero off6 inb_S512x128_S512x128_0_0 y⟩

set_option maxHeartbeats 1000000 in
theorem sound_kernel6_first (c : Dev nD) (E : Set ℕ) (i : grid6.Coords) (hc0 : cond6_0 i) (hc1 : ¬cond6_1 i)
    (arg1 : Memref sig .tc .vmem S5000x128 .f32) (harg1 : arg1.IsWhole) (arg2 : Memref sig .tc .vmem S5000x1 .i32) (harg2 : arg2.IsWhole)
    (arg3 : Memref sig .tc .vmem S512x128 .f32) (harg3 : arg3.IsWhole) (arg4 : Memref sig .tc .vmem S512x128 .f32) (harg4 : arg4.IsWhole)
    (x : Vec F S5000x128 .f32) (g : Vec F S5000x1 .i32) (K : PUnit → sProp 𝕄) :
    iprop(owns (c : Thread nD τ) arg1 fullShare x ∗ owns (c : Thread nD τ) arg2 fullShare g
        ∗ (∃ d, owns (c : Thread nD τ) arg4 fullShare d)
        ∗ (iprop(owns (c : Thread nD τ) arg1 fullShare x ∗ owns (c : Thread nD τ) arg2 fullShare g
            ∗ owns (c : Thread nD τ) arg4 fullShare (k6_pay2 g x (k6_pay1 (F := F)))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d3, %f3, -, H3⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  sl_unfold_run_names
  rw [View.read_writes_eq_canon _ _ _ (cover6 _ _), View.canon_cons_unit_zero off6, View.readCov_unit_zero _ off6,
    View.readAt_eq_ld, View.readAt_eq_ld, View.ld_unit_zero off6, View.ld_unit_zero off6]

set_option maxHeartbeats 1000000 in
theorem sound_kernel6_mid (c : Dev nD) (E : Set ℕ) (i : grid6.Coords) (hc0 : ¬cond6_0 i) (hc1 : ¬cond6_1 i)
    (arg1 : Memref sig .tc .vmem S5000x128 .f32) (harg1 : arg1.IsWhole) (arg2 : Memref sig .tc .vmem S5000x1 .i32) (harg2 : arg2.IsWhole)
    (arg3 : Memref sig .tc .vmem S512x128 .f32) (harg3 : arg3.IsWhole) (arg4 : Memref sig .tc .vmem S512x128 .f32) (harg4 : arg4.IsWhole)
    (x : Vec F S5000x128 .f32) (g : Vec F S5000x1 .i32) (xs : Vec F S512x128 .f32) (K : PUnit → sProp 𝕄) :
    iprop(owns (c : Thread nD τ) arg1 fullShare x ∗ owns (c : Thread nD τ) arg2 fullShare g
        ∗ owns (c : Thread nD τ) arg4 fullShare xs
        ∗ (iprop(owns (c : Thread nD τ) arg1 fullShare x ∗ owns (c : Thread nD τ) arg2 fullShare g
            ∗ owns (c : Thread nD τ) arg4 fullShare (k6_pay2 g x xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  rw [View.read_writes_eq_canon _ _ _ (cover6 _ _), View.canon_cons_unit_zero off6,
    View.readAt_eq_ld, View.readAt_eq_ld, View.readAt_eq_ld,
    View.ld_unit_zero off6, View.ld_unit_zero off6, View.ld_unit_zero off6]

set_option maxHeartbeats 1000000 in
theorem sound_kernel6_last (c : Dev nD) (E : Set ℕ) (i : grid6.Coords) (hc0 : ¬cond6_0 i) (hc1 : cond6_1 i)
    (arg1 : Memref sig .tc .vmem S5000x128 .f32) (harg1 : arg1.IsWhole) (arg2 : Memref sig .tc .vmem S5000x1 .i32) (harg2 : arg2.IsWhole)
    (arg3 : Memref sig .tc .vmem S512x128 .f32) (harg3 : arg3.IsWhole) (arg4 : Memref sig .tc .vmem S512x128 .f32) (harg4 : arg4.IsWhole)
    (x : Vec F S5000x128 .f32) (g : Vec F S5000x1 .i32) (xs : Vec F S512x128 .f32) (K : PUnit → sProp 𝕄) :
    iprop(owns (c : Thread nD τ) arg1 fullShare x ∗ owns (c : Thread nD τ) arg2 fullShare g
        ∗ (∃ d, owns (c : Thread nD τ) arg3 fullShare d)
        ∗ owns (c : Thread nD τ) arg4 fullShare xs
        ∗ (iprop(owns (c : Thread nD τ) arg1 fullShare x ∗ owns (c : Thread nD τ) arg2 fullShare g
            ∗ owns (c : Thread nD τ) arg3 fullShare (k6_pay2 g x xs)
            ∗ owns (c : Thread nD τ) arg4 fullShare (k6_pay2 g x xs)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover6 _ _), View.canon_cons_unit_zero off6, View.readCov_unit_zero _ off6,
      View.readAt_eq_ld, View.readAt_eq_ld, View.readAt_eq_ld,
      View.ld_unit_zero off6, View.ld_unit_zero off6, View.ld_unit_zero off6]
  iexists _; isplitr
  swap; · iexact H3
  ipureintro
  sl_unfold_run_names
  rw [View.read_writes_eq_canon _ _ _ (cover6 _ _), View.canon_cons_unit_zero off6,
    View.readAt_eq_ld, View.readAt_eq_ld, View.readAt_eq_ld,
    View.ld_unit_zero off6, View.ld_unit_zero off6, View.ld_unit_zero off6]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev scM6_0 : Memref sig .tc .vmem S512x128 .f32 := Memref.whole cc6_scratch0

def acc6 (c : Dev nD) : (n : ℕ) → n < cfg6.N → Vec F S512x128 .f32
  | 0, hn => k6_pay2 (iblk6 V c 1 ⟨0, hn⟩) (iblk6 V c 0 ⟨0, hn⟩) (k6_pay1 (F := F))
  | n + 1, hn => k6_pay2 (iblk6 V c 1 ⟨n + 1, hn⟩) (iblk6 V c 0 ⟨n + 1, hn⟩) (acc6 c n (Nat.lt_of_succ_lt hn))

def PhiS6 (c : Dev nD) : (n : ℕ) → n ≤ cfg6.N → sProp 𝕄
  | 0, _ => Pipeline.ΦA spec6 c
  | n + 1, hn => iprop(iprop(owns (c : Thread nD τ) scM6_0 fullShare (acc6 V c n hn)
      ∗ Pipeline.scopedRestBut (Ix := Unit) (Name := ℕ) (U := UR sig nD τ) (Lvl := ℕ) (Val := Elt F) spec6 c [cc6_scratch0]) ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = acc6 V c t.val t.isLt := by dsimp only [dat6]

theorem acc6_first (c : Dev nD) (t : Fin cfg6.N) (h : t.val = 0) :
    acc6 V c t.val t.isLt = k6_pay2 (iblk6 V c 1 t) (iblk6 V c 0 t) (k6_pay1 (F := F)) := by
  obtain ⟨n, hn⟩ := t
  cases n with
  | zero => rfl
  | succ n => exact absurd h (Nat.succ_ne_zero n)

theorem acc6_next (c : Dev nD) (t : Fin cfg6.N) (h : t.val ≠ 0) :
    acc6 V c t.val t.isLt = k6_pay2 (iblk6 V c 1 t) (iblk6 V c 0 t)
      (acc6 V c (t.val - 1) (Nat.lt_of_le_of_lt (Nat.sub_le _ _) t.isLt)) := by
  obtain ⟨n, hn⟩ := t
  cases n with
  | zero => exact absurd rfl h
  | succ n => rfl

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare (acc6 V c n hn)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare (acc6 V c (n - 1) (by omega))
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

theorem PhiS6_castSucc (c : Dev nD) (t : Fin cfg6.N) :
    (dat6 V c).Φ t.castSucc = PhiS6 V c t.val (Nat.le_of_lt t.isLt) := by
  dsimp only [dat6]; simp only [Fin.coe_castSucc]

theorem PhiA6_eq (c : Dev nD) :
    (Pipeline.ΦA spec6 c : sProp 𝕄)
      = iprop(iprop((∃ d, owns (c : Thread nD τ) scM6_0 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 2000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  have hN : t.val < 10 := lt_of_lt_of_eq t.isLt (show cfg6.N = 10 from N_6)
  by_cases h0 : t.val = 0
  ·
    have hc0 : cond6_0 (grid6.coords t) := (hcond6_0 t).mpr h0
    have hc1 : ¬cond6_1 (grid6.coords t) := fun h => by have := (hcond6_1 t).mp h; omega
    rw [Dat.leavesExact_idle (dat6 V c) 2 t (idleAt6_2 t hc1) (noFlush6_2 t hc1)]
    rw [acc6_first V c t h0]
    rw [PhiS6_castSucc V c t, PhiS6_zero V c _ _ h0, PhiA6_eq]
    iintro ⟨⟨⟨HS, HR⟩, Hg⟩, Ho, ⟨%d0, H0⟩, ⟨%d1, H1⟩, H2⟩
    iapply (sound_kernel6_first c Set.univ _ hc0 hc1 _ _ _ _ _ _ _ _ (iblk6 V c 0 t) (iblk6 V c 1 t) _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hc0 : ¬cond6_0 (grid6.coords t) := fun h => h0 ((hcond6_0 t).mp h)
    rw [acc6_next V c t h0]
    rw [PhiS6_castSucc V c t, PhiS6_pos V c _ _ h0]
    by_cases h9 : t.val = 9
    ·
      have hc1 : cond6_1 (grid6.coords t) := (hcond6_1 t).mpr h9
      rw [show (dat6 V c).leavesExact 2 t = owns (c : Thread nD τ) (st6_2 t) fullShare ((dat6 V c).after 2 t) from by
        unfold Dat.leavesExact; rw [liveAt6_2 t hc1], after6_2, acc6_next V c t h0]
      iintro ⟨⟨⟨HS, HR⟩, Hg⟩, Ho, ⟨%d0, H0⟩, ⟨%d1, H1⟩, ⟨%d2, H2⟩⟩
      iapply (sound_kernel6_last c Set.univ _ hc0 hc1 _ _ _ _ _ _ _ _ (iblk6 V c 0 t) (iblk6 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    ·
      have hc1 : ¬cond6_1 (grid6.coords t) := fun h => h9 ((hcond6_1 t).mp h)
      rw [Dat.leavesExact_idle (dat6 V c) 2 t (idleAt6_2 t hc1) (noFlush6_2 t hc1)]
      iintro ⟨⟨⟨HS, HR⟩, Hg⟩, Ho, ⟨%d0, H0⟩, ⟨%d1, H1⟩, H2⟩
      iapply (sound_kernel6_mid c Set.univ _ hc0 hc1 _ _ _ _ _ _ _ _ (iblk6 V c 0 t) (iblk6 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨HS, HR⟩, Hg⟩
  isplitl [HS HR]
  · isplitl [HS]; · iexists _; iexact HS
    iexact HR
  iexact Hg

end Cert.KernelIdeal.Hand

end
-- ==== Proof.KI.Fold.lean ====
import proofs.«414499_j137438954180_2_alg».proof.Proof.KI.Reg0
import proofs.«414499_j137438954180_2_alg».proof.Proof.KI.Reg1
import proofs.«414499_j137438954180_2_alg».proof.Proof.KI.Reg2
import proofs.«414499_j137438954180_2_alg».proof.Proof.KI.Reg3
import proofs.«414499_j137438954180_2_alg».proof.Proof.KI.Reg4
import proofs.«414499_j137438954180_2_alg».proof.Proof.KI.Reg5
import proofs.«414499_j137438954180_2_alg».proof.Proof.KI.Reg6
import proofs.«414499_j137438954180_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev U3 : Dev nD → Valuation τ sig (Elt F) := fun c => Gen.V3 m c
def X4 (c : Dev nD) : Buf (Elt F) ((c : Thread nD τ).loc main_v16) := (dat0 (atTc (U3 m)) c).arrAt 3 cfg0.N
abbrev U4 : Dev nD → Valuation τ sig (Elt F) := fun c => Function.update (U3 m c) main_v16 (X4 m c)
abbrev U5 : Dev nD → Valuation τ sig (Elt F) := fun c => StableHlo.after hostOps1 (U4 m c)
def X6 (c : Dev nD) : Buf (Elt F) ((c : Thread nD τ).loc main_v30) := (dat1 (atTc (U5 m)) c).arrAt 3 cfg1.N
abbrev U6 : Dev nD → Valuation τ sig (Elt F) := fun c => Function.update (U5 m c) main_v30 (X6 m c)
abbrev U7 : Dev nD → Valuation τ sig (Elt F) := fun c => StableHlo.after hostOps2 (U6 m c)
def X8 (c : Dev nD) : Buf (Elt F) ((c : Thread nD τ).loc main_v32) := (dat2 (atTc (U7 m)) c).arrAt 3 cfg2.N
abbrev U8 : Dev nD → Valuation τ sig (Elt F) := fun c => Function.update (U7 m c) main_v32 (X8 m c)
abbrev U9 : Dev nD → Valuation τ sig (Elt F) := fun c => StableHlo.after hostOps3 (U8 m c)
def X10 (c : Dev nD) : Buf (Elt F) ((c : Thread nD τ).loc main_v46) := (dat3 (atTc (U9 m)) c).arrAt 3 cfg3.N
abbrev U10 : Dev nD → Valuation τ sig (Elt F) := fun c => Function.update (U9 m c) main_v46 (X10 m c)
abbrev U11 : Dev nD → Valuation τ sig (Elt F) := fun c => StableHlo.after hostOps4 (U10 m c)
def X12 (c : Dev nD) : Buf (Elt F) ((c : Thread nD τ).loc main_v48) := (dat4 (atTc (U11 m)) c).arrAt 3 cfg4.N
abbrev U12 : Dev nD → Valuation τ sig (Elt F) := fun c => Function.update (U11 m c) main_v48 (X12 m c)
abbrev U13 : Dev nD → Valuation τ sig (Elt F) := fun c => StableHlo.after hostOps5 (U12 m c)
def X14 (c : Dev nD) : Buf (Elt F) ((c : Thread nD τ).loc main_v62) := (dat5 (atTc (U13 m)) c).arrAt 3 cfg5.N
abbrev U14 : Dev nD → Valuation τ sig (Elt F) := fun c => Function.update (U13 m c) main_v62 (X14 m c)
abbrev U15 : Dev nD → Valuation τ sig (Elt F) := fun c => StableHlo.after hostOps6 (U14 m c)
def X16 (c : Dev nD) : Buf (Elt F) ((c : Thread nD τ).loc main_v64) := (dat6 (atTc (U15 m)) c).arrAt 2 cfg6.N
abbrev U16 : Dev nD → Valuation τ sig (Elt F) := fun c => Function.update (U15 m c) main_v64 (X16 m c)
abbrev U17 : Dev nD → Valuation τ sig (Elt F) := fun c => StableHlo.after hostOps7 (U16 m c)

def outs : Gen.Outs (F := F) := fun n r c => match n with
  | 4 => U4 m c r
  | 6 => U6 m c r
  | 8 => U8 m c r
  | 10 => U10 m c r
  | 12 => U12 m c r
  | 14 => U14 m c r
  | 16 => U16 m c r
  | _ => U3 m c r

theorem V4_eq (c : Dev nD) : Gen.V4 m (outs m) c = U4 m c := by
  show Function.update (U3 m c) main_v16 (Function.update (U3 m c) main_v16 (X4 m c) main_v16) = _
  rw [Function.update_self]
theorem V5_eq (c : Dev nD) : Gen.V5 m (outs m) c = U5 m c := by
  show StableHlo.after hostOps1 (Gen.V4 m (outs m) c) = _; rw [V4_eq]
theorem V6_eq (c : Dev nD) : Gen.V6 m (outs m) c = U6 m c := by
  show Function.update (Gen.V5 m (outs m) c) main_v30 (Function.update (U5 m c) main_v30 (X6 m c) main_v30) = _
  rw [Function.update_self, V5_eq]
theorem V7_eq (c : Dev nD) : Gen.V7 m (outs m) c = U7 m c := by
  show StableHlo.after hostOps2 (Gen.V6 m (outs m) c) = _; rw [V6_eq]
theorem V8_eq (c : Dev nD) : Gen.V8 m (outs m) c = U8 m c := by
  show Function.update (Gen.V7 m (outs m) c) main_v32 (Function.update (U7 m c) main_v32 (X8 m c) main_v32) = _
  rw [Function.update_self, V7_eq]
theorem V9_eq (c : Dev nD) : Gen.V9 m (outs m) c = U9 m c := by
  show StableHlo.after hostOps3 (Gen.V8 m (outs m) c) = _; rw [V8_eq]
theorem V10_eq (c : Dev nD) : Gen.V10 m (outs m) c = U10 m c := by
  show Function.update (Gen.V9 m (outs m) c) main_v46 (Function.update (U9 m c) main_v46 (X10 m c) main_v46) = _
  rw [Function.update_self, V9_eq]
theorem V11_eq (c : Dev nD) : Gen.V11 m (outs m) c = U11 m c := by
  show StableHlo.after hostOps4 (Gen.V10 m (outs m) c) = _; rw [V10_eq]
theorem V12_eq (c : Dev nD) : Gen.V12 m (outs m) c = U12 m c := by
  show Function.update (Gen.V11 m (outs m) c) main_v48 (Function.update (U11 m c) main_v48 (X12 m c) main_v48) = _
  rw [Function.update_self, V11_eq]
theorem V13_eq (c : Dev nD) : Gen.V13 m (outs m) c = U13 m c := by
  show StableHlo.after hostOps5 (Gen.V12 m (outs m) c) = _; rw [V12_eq]
theorem V14_eq (c : Dev nD) : Gen.V14 m (outs m) c = U14 m c := by
  show Function.update (Gen.V13 m (outs m) c) main_v62 (Function.update (U13 m c) main_v62 (X14 m c) main_v62) = _
  rw [Function.update_self, V13_eq]
theorem V15_eq (c : Dev nD) : Gen.V15 m (outs m) c = U15 m c := by
  show StableHlo.after hostOps6 (Gen.V14 m (outs m) c) = _; rw [V14_eq]
theorem V16_eq (c : Dev nD) : Gen.V16 m (outs m) c = U16 m c := by
  show Function.update (Gen.V15 m (outs m) c) main_v64 (Function.update (U15 m c) main_v64 (X16 m c) main_v64) = _
  rw [Function.update_self, V15_eq]
theorem V17_eq (c : Dev nD) : Gen.V17 m (outs m) c = U17 m c := by
  show StableHlo.after hostOps7 (Gen.V16 m (outs m) c) = _; rw [V16_eq]

def pdats : (p : Fin 7) → (c : Dev nD) → Dat τ (Elt F) Unit ℕ (UR sig nD τ) ℕ (cfgs p) c
  | ⟨0, _⟩ => fun c => dat0 (atTc (U3 m)) c
  | ⟨1, _⟩ => fun c => dat1 (atTc (U5 m)) c
  | ⟨2, _⟩ => fun c => dat2 (atTc (U7 m)) c
  | ⟨3, _⟩ => fun c => dat3 (atTc (U9 m)) c
  | ⟨4, _⟩ => fun c => dat4 (atTc (U11 m)) c
  | ⟨5, _⟩ => fun c => dat5 (atTc (U13 m)) c
  | ⟨6, _⟩ => fun c => dat6 (atTc (U15 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.KernelIdeal.Hand

end
-- ==== Proof.KI.Seg0.lean ====
import proofs.«414499_j137438954180_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF0 (c : Dev nD) (w : Fin cfg0.W) :
    (pdats m (0 : Fin 7) c).arrAt w cfg0.N = atTc (U4 m) c (Pipeline.arrRef spec0 w) :=
  match w with
  | ⟨0, _⟩ => ((pdats m (0 : Fin 7) c).arrAt_in 0 rfl _).trans ((A_eq0 (atTc (U3 m)) c 0).trans (Function.update_of_ne (StableHlo.devRef_ne_of_ne (by decide)) _ _).symm)
  | ⟨1, _⟩ => ((pdats m (0 : Fin 7) c).arrAt_in 1 rfl _).trans ((A_eq0 (atTc (U3 m)) c 1).trans (Function.update_of_ne (StableHlo.devRef_ne_of_ne (by decide)) _ _).symm)
  | ⟨2, _⟩ => ((pdats m (0 : Fin 7) c).arrAt_in 2 rfl _).trans ((A_eq0 (atTc (U3 m)) c 2).trans (Function.update_of_ne (StableHlo.devRef_ne_of_ne (by decide)) _ _).symm)
  | ⟨3, _⟩ => (Function.update_self (f := U3 m c) (Proc.devRef .tc main_v16) (X4 m c)).symm

set_option maxHeartbeats 2000000 in
theorem hrest0 (c : Dev nD) : ∀ b, b ∉ Finset.univ.image (Pipeline.arrRef spec0) → atTc (U4 m) c b = atTc (U3 m) c b :=
  fun b hb => Function.update_of_ne (StableHlo.devRef_ne_of_ne fun e => hb (Finset.mem_image.mpr ⟨3, Finset.mem_univ _, e.symm⟩)) _ _

set_option backward.isDefEq.respectTransparency.types false in
def reg0 : Pipeline.RegionSeg (pcfgs (F := F)) Gen.adm (pdats m) () defs₀ 𝒱₀ L lv (0 : Fin 7) where
  win := launch0.win.to₀
  block_pos := launch0.block_pos
  stage_whole := launch0.stage_whole
  K := PEmpty
  osem k := k.elim
  ho := Pipeline.OwnSemFacts.none _
  hbody c := (body_obligation0 (atTc (U3 m)) c).loose
  hwaits := Pipeline.hwaits_of_owed_zero _ _ _ _ L lv (0 : Fin 7) fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (atTc (U3 m) c)
  hentry c := by
    rw [Pipeline.ownSems0_none]
    have hsplit := Pipeline.arrays_of_unscopedBufs (p := (0 : Fin 7)) (pcfgs (F := F)) Gen.adm (pdats m) launch0.win launch0.arr_whole c
      ((pdats m (0 : Fin 7) c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 7) c).Φ 0 = Pipeline.ΦA spec0 c from rfl]; unfold Pipeline.ΦA
    iintro ⟨Hp, -, Hr⟩
    isplitl [Hr]; · iexact Hr
    iexact Hp
  hout c := by
    rw [Pipeline.ownSems0_none, show (pdats m (0 : Fin 7) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 7)) (pcfgs (F := F)) Gen.adm (Ix := Unit) (Name := ℕ) (U := UR sig nD τ) (Lvl := ℕ)
      launch0.win launch0.arr_whole c (pdats m) ((pdats m (0 : Fin 7) c).share_full fun _ => rfl)
      (atTc (U3 m) c) (atTc (U4 m) c) ((pdats m (0 : Fin 7) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
import proofs.«414499_j137438954180_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF1 (c : Dev nD) (w : Fin cfg1.W) :
    (pdats m (1 : Fin 7) c).arrAt w cfg1.N = atTc (U6 m) c (Pipeline.arrRef spec1 w) :=
  match w with
  | ⟨0, _⟩ => ((pdats m (1 : Fin 7) c).arrAt_in 0 rfl _).trans ((A_eq1 (atTc (U5 m)) c 0).trans (Function.update_of_ne (StableHlo.devRef_ne_of_ne (by decide)) _ _).symm)
  | ⟨1, _⟩ => ((pdats m (1 : Fin 7) c).arrAt_in 1 rfl _).trans ((A_eq1 (atTc (U5 m)) c 1).trans (Function.update_of_ne (StableHlo.devRef_ne_of_ne (by decide)) _ _).symm)
  | ⟨2, _⟩ => ((pdats m (1 : Fin 7) c).arrAt_in 2 rfl _).trans ((A_eq1 (atTc (U5 m)) c 2).trans (Function.update_of_ne (StableHlo.devRef_ne_of_ne (by decide)) _ _).symm)
  | ⟨3, _⟩ => (Function.update_self (f := U5 m c) (Proc.devRef .tc main_v30) (X6 m c)).symm

set_option maxHeartbeats 2000000 in
theorem hrest1 (c : Dev nD) : ∀ b, b ∉ Finset.univ.image (Pipeline.arrRef spec1) → atTc (U6 m) c b = atTc (U5 m) c b :=
  fun b hb => Function.update_of_ne (StableHlo.devRef_ne_of_ne fun e => hb (Finset.mem_image.mpr ⟨3, Finset.mem_univ _, e.symm⟩)) _ _

set_option backward.isDefEq.respectTransparency.types false in
def reg1 : Pipeline.RegionSeg (pcfgs (F := F)) Gen.adm (pdats m) () defs₀ 𝒱₀ L lv (1 : Fin 7) where
  win := launch1.win.to₀
  block_pos := launch1.block_pos
  stage_whole := launch1.stage_whole
  K := PEmpty
  osem k := k.elim
  ho := Pipeline.OwnSemFacts.none _
  hbody c := (body_obligation1 (atTc (U5 m)) c).loose
  hwaits := Pipeline.hwaits_of_owed_zero _ _ _ _ L lv (1 : Fin 7) fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (atTc (U5 m) c)
  hentry c := by
    rw [Pipeline.ownSems0_none]
    have hsplit := Pipeline.arrays_of_unscopedBufs (p := (1 : Fin 7)) (pcfgs (F := F)) Gen.adm (pdats m) launch1.win launch1.arr_whole c
      ((pdats m (1 : Fin 7) c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (1 : Fin 7) c).Φ 0 = Pipeline.ΦA spec1 c from rfl]; unfold Pipeline.ΦA
    iintro ⟨Hp, -, Hr⟩
    isplitl [Hr]; · iexact Hr
    iexact Hp
  hout c := by
    rw [Pipeline.ownSems0_none, show (pdats m (1 : Fin 7) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 7)) (pcfgs (F := F)) Gen.adm (Ix := Unit) (Name := ℕ) (U := UR sig nD τ) (Lvl := ℕ)
      launch1.win launch1.arr_whole c (pdats m) ((pdats m (1 : Fin 7) c).share_full fun _ => rfl)
      (atTc (U5 m) c) (atTc (U6 m) c) ((pdats m (1 : Fin 7) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
import proofs.«414499_j137438954180_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF2 (c : Dev nD) (w : Fin cfg2.W) :
    (pdats m (2 : Fin 7) c).arrAt w cfg2.N = atTc (U8 m) c (Pipeline.arrRef spec2 w) :=
  match w with
  | ⟨0, _⟩ => ((pdats m (2 : Fin 7) c).arrAt_in 0 rfl _).trans ((A_eq2 (atTc (U7 m)) c 0).trans (Function.update_of_ne (StableHlo.devRef_ne_of_ne (by decide)) _ _).symm)
  | ⟨1, _⟩ => ((pdats m (2 : Fin 7) c).arrAt_in 1 rfl _).trans ((A_eq2 (atTc (U7 m)) c 1).trans (Function.update_of_ne (StableHlo.devRef_ne_of_ne (by decide)) _ _).symm)
  | ⟨2, _⟩ => ((pdats m (2 : Fin 7) c).arrAt_in 2 rfl _).trans ((A_eq2 (atTc (U7 m)) c 2).trans (Function.update_of_ne (StableHlo.devRef_ne_of_ne (by decide)) _ _).symm)
  | ⟨3, _⟩ => (Function.update_self (f := U7 m c) (Proc.devRef .tc main_v32) (X8 m c)).symm

set_option maxHeartbeats 2000000 in
theorem hrest2 (c : Dev nD) : ∀ b, b ∉ Finset.univ.image (Pipeline.arrRef spec2) → atTc (U8 m) c b = atTc (U7 m) c b :=
  fun b hb => Function.update_of_ne (StableHlo.devRef_ne_of_ne fun e => hb (Finset.mem_image.mpr ⟨3, Finset.mem_univ _, e.symm⟩)) _ _

set_option backward.isDefEq.respectTransparency.types false in
def reg2 : Pipeline.RegionSeg (pcfgs (F := F)) Gen.adm (pdats m) () defs₀ 𝒱₀ L lv (2 : Fin 7) where
  win := launch2.win.to₀
  block_pos := launch2.block_pos
  stage_whole := launch2.stage_whole
  K := PEmpty
  osem k := k.elim
  ho := Pipeline.OwnSemFacts.none _
  hbody c := (body_obligation2 (atTc (U7 m)) c).loose
  hwaits := Pipeline.hwaits_of_owed_zero _ _ _ _ L lv (2 : Fin 7) fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (atTc (U7 m) c)
  hentry c := by
    rw [Pipeline.ownSems0_none]
    have hsplit := Pipeline.arrays_of_unscopedBufs (p := (2 : Fin 7)) (pcfgs (F := F)) Gen.adm (pdats m) launch2.win launch2.arr_whole c
      ((pdats m (2 : Fin 7) c).share_full fun _ => rfl) (atTc (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (2 : Fin 7) c).Φ 0 = Pipeline.ΦA spec2 c from rfl]; unfold Pipeline.ΦA
    iintro ⟨Hp, -, Hr⟩
    isplitl [Hr]; · iexact Hr
    iexact Hp
  hout c := by
    rw [Pipeline.ownSems0_none, show (pdats m (2 : Fin 7) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 7)) (pcfgs (F := F)) Gen.adm (Ix := Unit) (Name := ℕ) (U := UR sig nD τ) (Lvl := ℕ)
      launch2.win launch2.arr_whole c (pdats m) ((pdats m (2 : Fin 7) c).share_full fun _ => rfl)
      (atTc (U7 m) c) (atTc (U8 m) c) ((pdats m (2 : Fin 7) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
import proofs.«414499_j137438954180_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF3 (c : Dev nD) (w : Fin cfg3.W) :
    (pdats m (3 : Fin 7) c).arrAt w cfg3.N = atTc (U10 m) c (Pipeline.arrRef spec3 w) :=
  match w with
  | ⟨0, _⟩ => ((pdats m (3 : Fin 7) c).arrAt_in 0 rfl _).trans ((A_eq3 (atTc (U9 m)) c 0).trans (Function.update_of_ne (StableHlo.devRef_ne_of_ne (by decide)) _ _).symm)
  | ⟨1, _⟩ => ((pdats m (3 : Fin 7) c).arrAt_in 1 rfl _).trans ((A_eq3 (atTc (U9 m)) c 1).trans (Function.update_of_ne (StableHlo.devRef_ne_of_ne (by decide)) _ _).symm)
  | ⟨2, _⟩ => ((pdats m (3 : Fin 7) c).arrAt_in 2 rfl _).trans ((A_eq3 (atTc (U9 m)) c 2).trans (Function.update_of_ne (StableHlo.devRef_ne_of_ne (by decide)) _ _).symm)
  | ⟨3, _⟩ => (Function.update_self (f := U9 m c) (Proc.devRef .tc main_v46) (X10 m c)).symm

set_option maxHeartbeats 2000000 in
theorem hrest3 (c : Dev nD) : ∀ b, b ∉ Finset.univ.image (Pipeline.arrRef spec3) → atTc (U10 m) c b = atTc (U9 m) c b :=
  fun b hb => Function.update_of_ne (StableHlo.devRef_ne_of_ne fun e => hb (Finset.mem_image.mpr ⟨3, Finset.mem_univ _, e.symm⟩)) _ _

set_option backward.isDefEq.respectTransparency.types false in
def reg3 : Pipeline.RegionSeg (pcfgs (F := F)) Gen.adm (pdats m) () defs₀ 𝒱₀ L lv (3 : Fin 7) where
  win := launch3.win.to₀
  block_pos := launch3.block_pos
  stage_whole := launch3.stage_whole
  K := PEmpty
  osem k := k.elim
  ho := Pipeline.OwnSemFacts.none _
  hbody c := (body_obligation3 (atTc (U9 m)) c).loose
  hwaits := Pipeline.hwaits_of_owed_zero _ _ _ _ L lv (3 : Fin 7) fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec3 c (atTc (U9 m) c)
  hentry c := by
    rw [Pipeline.ownSems0_none]
    have hsplit := Pipeline.arrays_of_unscopedBufs (p := (3 : Fin 7)) (pcfgs (F := F)) Gen.adm (pdats m) launch3.win launch3.arr_whole c
      ((pdats m (3 : Fin 7) c).share_full fun _ => rfl) (atTc (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (3 : Fin 7) c).Φ 0 = Pipeline.ΦA spec3 c from rfl]; unfold Pipeline.ΦA
    iintro ⟨Hp, -, Hr⟩
    isplitl [Hr]; · iexact Hr
    iexact Hp
  hout c := by
    rw [Pipeline.ownSems0_none, show (pdats m (3 : Fin 7) c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := (3 : Fin 7)) (pcfgs (F := F)) Gen.adm (Ix := Unit) (Name := ℕ) (U := UR sig nD τ) (Lvl := ℕ)
      launch3.win launch3.arr_whole c (pdats m) ((pdats m (3 : Fin 7) c).share_full fun _ => rfl)
      (atTc (U9 m) c) (atTc (U10 m) c) ((pdats m (3 : Fin 7) c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
import proofs.«414499_j137438954180_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF4 (c : Dev nD) (w : Fin cfg4.W) :
    (pdats m (4 : Fin 7) c).arrAt w cfg4.N = atTc (U12 m) c (Pipeline.arrRef spec4 w) :=
  match w with
  | ⟨0, _⟩ => ((pdats m (4 : Fin 7) c).arrAt_in 0 rfl _).trans ((A_eq4 (atTc (U11 m)) c 0).trans (Function.update_of_ne (StableHlo.devRef_ne_of_ne (by decide)) _ _).symm)
  | ⟨1, _⟩ => ((pdats m (4 : Fin 7) c).arrAt_in 1 rfl _).trans ((A_eq4 (atTc (U11 m)) c 1).trans (Function.update_of_ne (StableHlo.devRef_ne_of_ne (by decide)) _ _).symm)
  | ⟨2, _⟩ => ((pdats m (4 : Fin 7) c).arrAt_in 2 rfl _).trans ((A_eq4 (atTc (U11 m)) c 2).trans (Function.update_of_ne (StableHlo.devRef_ne_of_ne (by decide)) _ _).symm)
  | ⟨3, _⟩ => (Function.update_self (f := U11 m c) (Proc.devRef .tc main_v48) (X12 m c)).symm

set_option maxHeartbeats 2000000 in
theorem hrest4 (c : Dev nD) : ∀ b, b ∉ Finset.univ.image (Pipeline.arrRef spec4) → atTc (U12 m) c b = atTc (U11 m) c b :=
  fun b hb => Function.update_of_ne (StableHlo.devRef_ne_of_ne fun e => hb (Finset.mem_image.mpr ⟨3, Finset.mem_univ _, e.symm⟩)) _ _

set_option backward.isDefEq.respectTransparency.types false in
def reg4 : Pipeline.RegionSeg (pcfgs (F := F)) Gen.adm (pdats m) () defs₀ 𝒱₀ L lv (4 : Fin 7) where
  win := launch4.win.to₀
  block_pos := launch4.block_pos
  stage_whole := launch4.stage_whole
  K := PEmpty
  osem k := k.elim
  ho := Pipeline.OwnSemFacts.none _
  hbody c := (body_obligation4 (atTc (U11 m)) c).loose
  hwaits := Pipeline.hwaits_of_owed_zero _ _ _ _ L lv (4 : Fin 7) fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec4 c (atTc (U11 m) c)
  hentry c := by
    rw [Pipeline.ownSems0_none]
    have hsplit := Pipeline.arrays_of_unscopedBufs (p := (4 : Fin 7)) (pcfgs (F := F)) Gen.adm (pdats m) launch4.win launch4.arr_whole c
      ((pdats m (4 : Fin 7) c).share_full fun _ => rfl) (atTc (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (4 : Fin 7) c).Φ 0 = Pipeline.ΦA spec4 c from rfl]; unfold Pipeline.ΦA
    iintro ⟨Hp, -, Hr⟩
    isplitl [Hr]; · iexact Hr
    iexact Hp
  hout c := by
    rw [Pipeline.ownSems0_none, show (pdats m (4 : Fin 7) c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := (4 : Fin 7)) (pcfgs (F := F)) Gen.adm (Ix := Unit) (Name := ℕ) (U := UR sig nD τ) (Lvl := ℕ)
      launch4.win launch4.arr_whole c (pdats m) ((pdats m (4 : Fin 7) c).share_full fun _ => rfl)
      (atTc (U11 m) c) (atTc (U12 m) c) ((pdats m (4 : Fin 7) c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
import proofs.«414499_j137438954180_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF5 (c : Dev nD) (w : Fin cfg5.W) :
    (pdats m (5 : Fin 7) c).arrAt w cfg5.N = atTc (U14 m) c (Pipeline.arrRef spec5 w) :=
  match w with
  | ⟨0, _⟩ => ((pdats m (5 : Fin 7) c).arrAt_in 0 rfl _).trans ((A_eq5 (atTc (U13 m)) c 0).trans (Function.update_of_ne (StableHlo.devRef_ne_of_ne (by decide)) _ _).symm)
  | ⟨1, _⟩ => ((pdats m (5 : Fin 7) c).arrAt_in 1 rfl _).trans ((A_eq5 (atTc (U13 m)) c 1).trans (Function.update_of_ne (StableHlo.devRef_ne_of_ne (by decide)) _ _).symm)
  | ⟨2, _⟩ => ((pdats m (5 : Fin 7) c).arrAt_in 2 rfl _).trans ((A_eq5 (atTc (U13 m)) c 2).trans (Function.update_of_ne (StableHlo.devRef_ne_of_ne (by decide)) _ _).symm)
  | ⟨3, _⟩ => (Function.update_self (f := U13 m c) (Proc.devRef .tc main_v62) (X14 m c)).symm

set_option maxHeartbeats 2000000 in
theorem hrest5 (c : Dev nD) : ∀ b, b ∉ Finset.univ.image (Pipeline.arrRef spec5) → atTc (U14 m) c b = atTc (U13 m) c b :=
  fun b hb => Function.update_of_ne (StableHlo.devRef_ne_of_ne fun e => hb (Finset.mem_image.mpr ⟨3, Finset.mem_univ _, e.symm⟩)) _ _

set_option backward.isDefEq.respectTransparency.types false in
def reg5 : Pipeline.RegionSeg (pcfgs (F := F)) Gen.adm (pdats m) () defs₀ 𝒱₀ L lv (5 : Fin 7) where
  win := launch5.win.to₀
  block_pos := launch5.block_pos
  stage_whole := launch5.stage_whole
  K := PEmpty
  osem k := k.elim
  ho := Pipeline.OwnSemFacts.none _
  hbody c := (body_obligation5 (atTc (U13 m)) c).loose
  hwaits := Pipeline.hwaits_of_owed_zero _ _ _ _ L lv (5 : Fin 7) fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec5 c (atTc (U13 m) c)
  hentry c := by
    rw [Pipeline.ownSems0_none]
    have hsplit := Pipeline.arrays_of_unscopedBufs (p := (5 : Fin 7)) (pcfgs (F := F)) Gen.adm (pdats m) launch5.win launch5.arr_whole c
      ((pdats m (5 : Fin 7) c).share_full fun _ => rfl) (atTc (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (5 : Fin 7) c).Φ 0 = Pipeline.ΦA spec5 c from rfl]; unfold Pipeline.ΦA
    iintro ⟨Hp, -, Hr⟩
    isplitl [Hr]; · iexact Hr
    iexact Hp
  hout c := by
    rw [Pipeline.ownSems0_none, show (pdats m (5 : Fin 7) c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := (5 : Fin 7)) (pcfgs (F := F)) Gen.adm (Ix := Unit) (Name := ℕ) (U := UR sig nD τ) (Lvl := ℕ)
      launch5.win launch5.arr_whole c (pdats m) ((pdats m (5 : Fin 7) c).share_full fun _ => rfl)
      (atTc (U13 m) c) (atTc (U14 m) c) ((pdats m (5 : Fin 7) c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
import proofs.«414499_j137438954180_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
theorem hF6 (c : Dev nD) (w : Fin cfg6.W) :
    (pdats m (6 : Fin 7) c).arrAt w cfg6.N = atTc (U16 m) c (Pipeline.arrRef spec6 w) :=
  match w with
  | ⟨0, _⟩ => ((pdats m (6 : Fin 7) c).arrAt_in 0 rfl _).trans ((A_eq6 (atTc (U15 m)) c 0).trans (Function.update_of_ne (StableHlo.devRef_ne_of_ne (by decide)) _ _).symm)
  | ⟨1, _⟩ => ((pdats m (6 : Fin 7) c).arrAt_in 1 rfl _).trans ((A_eq6 (atTc (U15 m)) c 1).trans (Function.update_of_ne (StableHlo.devRef_ne_of_ne (by decide)) _ _).symm)
  | ⟨2, _⟩ => (Function.update_self (f := U15 m c) (Proc.devRef .tc main_v64) (X16 m c)).symm

set_option maxHeartbeats 2000000 in
theorem hrest6 (c : Dev nD) : ∀ b, b ∉ Finset.univ.image (Pipeline.arrRef spec6) → atTc (U16 m) c b = atTc (U15 m) c b :=
  fun b hb => Function.update_of_ne (StableHlo.devRef_ne_of_ne fun e => hb (Finset.mem_image.mpr ⟨2, Finset.mem_univ _, e.symm⟩)) _ _

set_option backward.isDefEq.respectTransparency.types false in
def reg6 : Pipeline.RegionSeg (pcfgs (F := F)) Gen.adm (pdats m) () defs₀ 𝒱₀ L lv (6 : Fin 7) where
  win := launch6.win.to₀
  block_pos := launch6.block_pos
  stage_whole := launch6.stage_whole
  K := PEmpty
  osem k := k.elim
  ho := Pipeline.OwnSemFacts.none _
  hbody c := (body_obligation6 (atTc (U15 m)) c).loose
  hwaits := Pipeline.hwaits_of_owed_zero _ _ _ _ L lv (6 : Fin 7) fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec6 c (atTc (U15 m) c)
  hentry c := by
    rw [Pipeline.ownSems0_none]
    have hsplit := Pipeline.arrays_of_unscopedBufs (p := (6 : Fin 7)) (pcfgs (F := F)) Gen.adm (pdats m) launch6.win launch6.arr_whole c
      ((pdats m (6 : Fin 7) c).share_full fun _ => rfl) (atTc (U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (atTc (U15 m)) c)
    unfold Pipeline.ΦA
    iintro ⟨Hp, -, Hr⟩
    isplitl [Hr]; · iexact Hr
    iexact Hp
  hout c := by
    rw [Pipeline.ownSems0_none]
    refine BIBase.Entails.trans (hout6 (atTc (U15 m)) c) ?_
    unfold Pipeline.ΦA
    iintro ⟨Hr, Hp⟩
    isplitl [Hp]; · iexact Hp
    isplitr; · iempintro
    iexact Hr
  hexit c := by
    have hjoin := Pipeline.unscopedBufs_of_arrays (p := (6 : Fin 7)) (pcfgs (F := F)) Gen.adm (Ix := Unit) (Name := ℕ) (U := UR sig nD τ) (Lvl := ℕ)
      launch6.win launch6.arr_whole c (pdats m) ((pdats m (6 : Fin 7) c).share_full fun _ => rfl)
      (atTc (U15 m) c) (atTc (U16 m) c) ((pdats m (6 : Fin 7) c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
import proofs.«414499_j137438954180_2_alg».proof.Proof.KI.Seg0
import proofs.«414499_j137438954180_2_alg».proof.Proof.KI.Seg1
import proofs.«414499_j137438954180_2_alg».proof.Proof.KI.Seg2
import proofs.«414499_j137438954180_2_alg».proof.Proof.KI.Seg3
import proofs.«414499_j137438954180_2_alg».proof.Proof.KI.Seg4
import proofs.«414499_j137438954180_2_alg».proof.Proof.KI.Seg5
import proofs.«414499_j137438954180_2_alg».proof.Proof.KI.Seg6
import proofs.«414499_j137438954180_2_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0_core (c : Dev nD) : (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
    ⊢ R (F := F) c := by
  iintro ⟨-, HO, -, Hp, -⟩
  isplitl [Hp]; · iexists _; iexact Hp
  iexists ∅; iexact HO

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => hE0_core ρ c
  iintro ⟨H, -⟩
  imodintro
  iapply hmono
  iexact H

theorem hE7 (c : Dev nD) : R (F := F) c ⊢ (iprop(∃ W, owes (c : Thread nD τ) (0 : CellTallies nD τ sig Unit) W) : sProp 𝕄) := by
  iintro ⟨-, H⟩; iexact H

theorem hpre0 (c : Dev nD) : iprop(StableHlo.held (c : Thread nD τ) (Pipeline.ucRefs τ sig) (Gen.V3 m c) ∗ R (F := F) c) ⊢ (reg0 m).pre c := by
  exact .rfl
theorem hpost0 (c : Dev nD) : (reg0 m).post c ⊢ iprop(StableHlo.held (c : Thread nD τ) (Pipeline.ucRefs τ sig) (Gen.V4 m (outs m) c) ∗ R (F := F) c) := by
  rw [V4_eq]; exact .rfl
theorem hpre1 (c : Dev nD) : iprop(StableHlo.held (c : Thread nD τ) (Pipeline.ucRefs τ sig) (Gen.V5 m (outs m) c) ∗ R (F := F) c) ⊢ (reg1 m).pre c := by
  rw [V5_eq]; exact .rfl
theorem hpost1 (c : Dev nD) : (reg1 m).post c ⊢ iprop(StableHlo.held (c : Thread nD τ) (Pipeline.ucRefs τ sig) (Gen.V6 m (outs m) c) ∗ R (F := F) c) := by
  rw [V6_eq]; exact .rfl
theorem hpre2 (c : Dev nD) : iprop(StableHlo.held (c : Thread nD τ) (Pipeline.ucRefs τ sig) (Gen.V7 m (outs m) c) ∗ R (F := F) c) ⊢ (reg2 m).pre c := by
  rw [V7_eq]; exact .rfl
theorem hpost2 (c : Dev nD) : (reg2 m).post c ⊢ iprop(StableHlo.held (c : Thread nD τ) (Pipeline.ucRefs τ sig) (Gen.V8 m (outs m) c) ∗ R (F := F) c) := by
  rw [V8_eq]; exact .rfl
theorem hpre3 (c : Dev nD) : iprop(StableHlo.held (c : Thread nD τ) (Pipeline.ucRefs τ sig) (Gen.V9 m (outs m) c) ∗ R (F := F) c) ⊢ (reg3 m).pre c := by
  rw [V9_eq]; exact .rfl
theorem hpost3 (c : Dev nD) : (reg3 m).post c ⊢ iprop(StableHlo.held (c : Thread nD τ) (Pipeline.ucRefs τ sig) (Gen.V10 m (outs m) c) ∗ R (F := F) c) := by
  rw [V10_eq]; exact .rfl
theorem hpre4 (c : Dev nD) : iprop(StableHlo.held (c : Thread nD τ) (Pipeline.ucRefs τ sig) (Gen.V11 m (outs m) c) ∗ R (F := F) c) ⊢ (reg4 m).pre c := by
  rw [V11_eq]; exact .rfl
theorem hpost4 (c : Dev nD) : (reg4 m).post c ⊢ iprop(StableHlo.held (c : Thread nD τ) (Pipeline.ucRefs τ sig) (Gen.V12 m (outs m) c) ∗ R (F := F) c) := by
  rw [V12_eq]; exact .rfl
theorem hpre5 (c : Dev nD) : iprop(StableHlo.held (c : Thread nD τ) (Pipeline.ucRefs τ sig) (Gen.V13 m (outs m) c) ∗ R (F := F) c) ⊢ (reg5 m).pre c := by
  rw [V13_eq]; exact .rfl
theorem hpost5 (c : Dev nD) : (reg5 m).post c ⊢ iprop(StableHlo.held (c : Thread nD τ) (Pipeline.ucRefs τ sig) (Gen.V14 m (outs m) c) ∗ R (F := F) c) := by
  rw [V14_eq]; exact .rfl
theorem hpre6 (c : Dev nD) : iprop(StableHlo.held (c : Thread nD τ) (Pipeline.ucRefs τ sig) (Gen.V15 m (outs m) c) ∗ R (F := F) c) ⊢ (reg6 m).pre c := by
  rw [V15_eq]; exact .rfl
theorem hpost6 (c : Dev nD) : (reg6 m).post c ⊢ iprop(StableHlo.held (c : Thread nD τ) (Pipeline.ucRefs τ sig) (Gen.V16 m (outs m) c) ∗ R (F := F) c) := by
  rw [V16_eq]; exact .rfl

set_option backward.isDefEq.respectTransparency.types false in
theorem run_all : θ_run defs (onTc (τ := τ) (main (F := F))) ⟨m, fun _ => 0, ρ⟩ (fun r => ∀ c : Dev nD, ∀ b ∈ Pipeline.ucRefs τ sig,
    r.2.mem ((c.tc : Thread nD τ).1, b) = U17 m c b) :=
  (θ_run defs _ _).mono (fun r h c b hb => (h c b hb).trans (congrFun (V17_eq m c) b))
    (Gen.run_cond m emb₁ () 𝒱₀ L lv (fun _ _ => rfl) ρ (outs m) (pdats m) (0 : Dev nD → CellTallies nD τ sig Unit) (fun _ => (BI.emp : sProp 𝕄))
      (initOf (Pipeline.cells cfgs cellOf_inj) (Pipeline.launchToks cfgs cellOf_inj)) hu0
      (fun _ c => R (F := F) c) (hE0 ρ) hE7
      (reg0 m) (hpre0 m) (hpost0 m) (reg1 m) (hpre1 m) (hpost1 m) (reg2 m) (hpre2 m) (hpost2 m) (reg3 m) (hpre3 m) (hpost3 m)
      (reg4 m) (hpre4 m) (hpost4 m) (reg5 m) (hpre5 m) (hpost5 m) (reg6 m) (hpre6 m) (hpost6 m))

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every argument array holds in `mem` what it holds in the launch memory. -/
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)

/-- No item of @main writes an argument array, so the last valuation still has the launch contents there. -/
theorem args_kept (mem : (ℓ : Loc nD τ sig) → Buf (Elt F) ℓ)
    (h : ∀ c : Dev nD, ∀ b ∈ Pipeline.ucRefs τ sig, mem ((c.tc : Thread nD τ).1, b) = U17 m c b) (c : Dev nD) :
    ArgsKept m mem c := by
  have k : ∀ (b : Ref sig .tc) (hb : ¬ (Proc.devRef .tc b : DevRef τ sig).isScoped),
      Gen.V17 m (outs m) c b = m ((c.tc : Thread nD τ).loc b) → mem ((c.tc : Thread nD τ).loc b) = m ((c.tc : Thread nD τ).loc b) :=
    fun b hb e => (h c _ (mem_uc b hb)).trans ((congrFun (V17_eq m c) b).symm.trans e)
  exact ⟨k main_arg0 (by decide) (Gen.V17_main_arg0 m (outs m) c),
    k main_arg1 (by decide) (Gen.V17_main_arg1 m (outs m) c),
    k main_arg2 (by decide) (Gen.V17_main_arg2 m (outs m) c),
    k main_arg3 (by decide) (Gen.V17_main_arg3 m (outs m) c),
    k main_arg4 (by decide) (Gen.V17_main_arg4 m (outs m) c),
    k main_arg5 (by decide) (Gen.V17_main_arg5 m (outs m) c),
    k main_arg6 (by decide) (Gen.V17_main_arg6 m (outs m) c),
    k main_arg7 (by decide) (Gen.V17_main_arg7 m (outs m) c),
    k main_arg8 (by decide) (Gen.V17_main_arg8 m (outs m) c)⟩

theorem frame : θ_run defs (onTc (τ := τ) (main (F := F))) ⟨m, fun _ => 0, ρ⟩ (fun r => ∀ c : Dev nD, ArgsKept m r.2.mem c) :=
  (θ_run defs _ _).mono (fun r h c => args_kept m r.2.mem h c) (run_all m ρ)

end Cert.KernelIdeal.Hand

end
-- ==== Proof.KFrame.lean ====
/- The word-level program and the idealized one are one text under two names, so the frame proved once for every
float instance is the word-level program's frame too. -/
import proofs.«414499_j137438954180_2_alg».proof.Defs
import proofs.«414499_j137438954180_2_alg».proof.Proof.KI.Frame
import proofs.«414499_j137438954180_2_alg».proof.Proof.Gen.Kernel
import proofs.«414499_j137438954180_2_alg».proof.Proof.Gen.Pre_finite_inputs

namespace Cert.Kernel.Hand

open Idealize.ShloMosaic Idealize.SL.Sem

set_option maxHeartbeats 6000000 in
/-- The two body tables agree label by label: each label runs the same kernel function on the same operands. -/
theorem defs₀_eq : Cert.Kernel.defs₀ (F := Bits) = Cert.KernelIdeal.defs₀ (F := Bits) :=
  congrArg Defs.onTc (funext fun ℓ => funext fun a => by
    match ℓ, a with
    | 0, (t, s) => rfl
    | 1, (t, s) => rfl
    | 2, (t, s) => rfl
    | 3, (t, s) => rfl
    | 4, (t, s) => rfl
    | 5, (t, s) => rfl
    | 6, (t, s) => rfl)

set_option maxHeartbeats 1000000 in
theorem defs_eq : Cert.Kernel.defs (F := Bits) = Cert.KernelIdeal.defs (F := Bits) :=
  congrArg (Pipeline.defs _) defs₀_eq

set_option maxHeartbeats 2000000 in
theorem frame : Cert.frame_Kernel := fun m ρ _ => defs_eq ▸ Cert.KernelIdeal.Hand.frame (F := Bits) m ρ

end Cert.Kernel.Hand
-- ==== Proof.Spec.lean ====
import proofs.«414499_j137438954180_2_alg».proof.Proof.Gen.KernelIdeal
import proofs.«414499_j137438954180_2_alg».proof.Proof.Gen.ReferenceIdeal
import Idealize.ShloMosaic.Lib.ValueIdx
import Idealize.ShloMosaic.PureOps.Ideal.Laws

noncomputable section

namespace Cert.Spec

open Idealize.ShloMosaic Idealize.ShloMosaic.ValueIdx

def msOut (x : FVec Ideal Cert.KernelIdeal.S50000x128 .f32) (w : FVec Ideal Cert.KernelIdeal.S128x128 .f32)
    (dv : FVec Ideal Cert.KernelIdeal.S50000x1 .f32) : FVec Ideal Cert.KernelIdeal.S50000x128 .bf16 :=
  fun i => (∑ k : Fin 128, x (ix2 (i 0) k) * w (ix2 k (i 1))) * dv (ix2 (i 0) 0)

def btOut (agg : FVec Ideal Cert.KernelIdeal.S50000x128 .f32) (dv : FVec Ideal Cert.KernelIdeal.S50000x1 .f32)
    (b : FVec Ideal Cert.KernelIdeal.S1x128 .f32) : FVec Ideal Cert.KernelIdeal.S50000x128 .f32 :=
  fun i => Ideal.tanh (agg i * dv (ix2 (i 0) 0) + b (ix2 0 (i 1)))

def poolOut (x : FVec Ideal Cert.KernelIdeal.S50000x128 .f32) (bt : IVec Cert.KernelIdeal.S50000x1 32) :
    FVec Ideal Cert.KernelIdeal.S512x128 .f32 :=
  fun i => ∑ n : Fin 50000, (if bt (ix2 n 0) = BitVec.ofNat 32 (i 0).val then (1 : EReal) else 0) * x (ix2 n (i 1))

section K
open Cert.KernelIdeal Cert.KernelIdeal.Facts₀

def wrapK (r : IVec S850000 32) : IVec S850000 32 :=
  select (cmpi .slt r (broadcastInDim S850000 ![] bcast_S_S850000 (constantI S_ 32 0#32)))
    (addi r (broadcastInDim S850000 ![] bcast_S_S850000 (constantI S_ 32 50000#32))) r

def degK (col : IVec S850000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 col)
    (broadcastInDim S850000 ![] bcast_S_S850000 (constant S_ .f32 0x3F800000#32))
def dinvK (col : IVec S850000 32) : FVec Ideal S50000 .f32 :=
  select (cmpf .ogt (degK col) (broadcastInDim S50000 ![] bcast_S_S50000 (constant S_ .f32 0x00000000#32)))
    (Host.rsqrt (degK col))
    (broadcastInDim S50000 ![] bcast_S_S50000 (id (constant S_ .f32 0x00000000#32)))

def aggK (row col : IVec S850000 32) (hs : FVec Ideal S50000x128 .bf16) : FVec Ideal S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 col)
    (extf .f32 (Host.gather gather_S50000x128_S850000x1_S850000x128_1_0_n_n_0_1_1128 hs
      (broadcastInDim S850000x1 ![0] bcast_S850000_S850000x1_0 (wrapK row))) bitsLt_bf16_f32)

def layerK (dinv : FVec Ideal S50000 .f32) (row col : IVec S850000 32) (x : FVec Ideal S50000x128 .f32)
    (w : FVec Ideal S128x128 .f32) (b : FVec Ideal S128 .f32) : FVec Ideal S50000x128 .f32 :=
  btOut (aggK row col (msOut x w (shapeCast _ dinv shapeCasts_S50000_S50000x1)))
    (shapeCast _ dinv shapeCasts_S50000_S50000x1) (shapeCast _ b shapeCasts_S128_S1x128)

def cntK (bt : IVec S50000 32) : FVec Ideal S512x128 .f32 :=
  broadcastInDim S512x128 ![0, 1] bcast_S512x1_S512x128_0_1
    (maximumf
      (Host.scatterAdd scatter_S512x1_S50000x1_S50000x1_1_0_0_1
        (broadcastInDim S512x1 ![] bcast_S_S512x1 (constant S_ .f32 0x00000000#32))
        (broadcastInDim S50000x1 ![0] bcast_S50000_S50000x1_0 bt)
        (broadcastInDim S50000x1 ![] bcast_S_S50000x1 (constant S_ .f32 0x3F800000#32)))
      (broadcastInDim S512x1 ![] bcast_S_S512x1 (constant S_ .f32 0x3F800000#32)))

def meanK (x : FVec Ideal S50000x128 .f32) (bt : IVec S50000 32) : FVec Ideal S512x128 .f32 :=
  Host.divf (poolOut x (shapeCast _ bt shapeCasts_S50000_S50000x1)) (cntK bt)

end K

section R
open Cert.ReferenceIdeal Cert.ReferenceIdeal.Facts₀

def wrapR (r : IVec S850000 32) : IVec S850000 32 :=
  select (cmpi .slt r (broadcastInDim S850000 ![] bcast_S_S850000 (constantI S_ 32 0#32)))
    (addi r (broadcastInDim S850000 ![] bcast_S_S850000 (constantI S_ 32 50000#32))) r

def normR (dinv : FVec Ideal S50000 .f32) (row col : IVec S850000 32) : FVec Ideal S850000x1 .f32 :=
  broadcastInDim S850000x1 ![0] bcast_S850000_S850000x1_0
    (mulf
      (Host.gather gather_S50000_S850000x1_S850000_n_0_n_n_0_1_1 dinv (broadcastInDim S850000x1 ![0] bcast_S850000_S850000x1_0 (wrapR row)))
      (Host.gather gather_S50000_S850000x1_S850000_n_0_n_n_0_1_1 dinv (broadcastInDim S850000x1 ![0] bcast_S850000_S850000x1_0 (wrapR col))))

def layerR (dinv : FVec Ideal S50000 .f32) (row col : IVec S850000 32) (x : FVec Ideal S50000x128 .f32)
    (w : FVec Ideal S128x128 .f32) (b : FVec Ideal S128 .f32) : FVec Ideal S50000x128 .f32 :=
  Host.tanh (addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 col)
      (mulf
        (Host.gather gather_S50000x128_S850000x1_S850000x128_1_0_n_n_0_1_1128
          (Host.dotGeneral dot_S50000x128_S128x128_S50000x128_1_0_0_1_n_n none x w)
          (broadcastInDim S850000x1 ![0] bcast_S850000_S850000x1_0 (wrapR row)))
        (broadcastInDim S850000x128 ![0, 1] bcast_S850000x1_S850000x128_0_1 (normR dinv row col))))
    (broadcastInDim S50000x128 ![0, 1] bcast_S1x128_S50000x128_0_1 (broadcastInDim S1x128 ![1] bcast_S128_S1x128_1 b)))

def poolR (x : FVec Ideal S50000x128 .f32) (bt : IVec S50000 32) : FVec Ideal S512x128 .f32 :=
  Host.scatterAdd scatter_S512x128_S50000x1_S50000x128_1_0_0_1
    (broadcastInDim S512x128 ![] bcast_S_S512x128 (constant S_ .f32 0x00000000#32))
    (broadcastInDim S50000x1 ![0] bcast_S50000_S50000x1_0 bt) x

end R

def NonnegReal (dinv : FVec Ideal Cert.KernelIdeal.S50000 .f32) : Prop :=
  ∀ i, ∃ r : ℝ, 0 ≤ r ∧ dinv i = (r : EReal)

end Cert.Spec

end
-- ==== Proof.KI.Blk.lean ====
/- Facts about one block of 5000 rows that do not depend on which layer's call reads it. -/
import proofs.«414499_j137438954180_2_alg».proof.Proof.Gen.KernelIdeal
import proofs.«414499_j137438954180_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Blk

open Cert.KernelIdeal Cert.KernelIdeal.Gen
open Idealize.ShloMosaic Idealize.ShloMosaic.TcCoe Idealize.ShloMosaic.ValueIdx

theorem zeroOff : (![0, 0] : Fin 2 → Nat) = fun _ => 0 := funext fun a => by fin_cases a <;> rfl

theorem lhsRow (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsCol (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhsRow (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhsCol (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem blockProduct_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsRow _ _
    | ⟨1, _⟩ => exact (lhsCol _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsRow _ _).trans hk
    | ⟨1, _⟩ => exact rhsCol _ _)
  rw [el, er]

theorem scaleColumn_apply (d : FVec Ideal S5000x1 .f32) (p : Fin 5000) (q : Fin 128) :
    broadcastTo S5000x128 (shapeCast S5000x1 d shapeCasts_S5000x1_S5000x1) broadcasts_S5000x1_S5000x128 (ix2 p q) = d (ix2 p 0) := by
  rw [shapeCast_self]
  exact broadcastTo_apply d broadcasts_S5000x1_S5000x128 (ix2 p q) (ix2 p 0) (fun a => match a with
    | ⟨0, _⟩ => by show p.val = if (5000 : Nat) = 1 then 0 else p.val; rw [if_neg (by decide)]
    | ⟨1, _⟩ => by show (0 : Nat) = if (1 : Nat) = 1 then 0 else _; rw [if_pos rfl])

/-- The row-scaled block plus the bias row, under tanh, read at row `p` and column `q`. -/
theorem biasTanh_apply (xa : Vec Ideal S5000x128 .f32) (xd : Vec Ideal S5000x1 .f32) (xb : Vec Ideal S1x128 .f32)
    (p : Fin 5000) (q : Fin 128) :
    Ideal.tanh (shapeCast S5000x128 xa shapeCasts_S5000x128_S5000x128 (ix2 p q)
      * broadcastTo S5000x128 (shapeCast S5000x1 xd shapeCasts_S5000x1_S5000x1) broadcasts_S5000x1_S5000x128 (ix2 p q)
      + broadcastTo S5000x128 (shapeCast S1x128 xb shapeCasts_S1x128_S1x128) broadcasts_S1x128_S5000x128 (ix2 p q))
      = Ideal.tanh (xa (ix2 p q) * xd (ix2 p 0) + xb (ix2 0 q)) := by
  have ea : shapeCast S5000x128 xa shapeCasts_S5000x128_S5000x128 (ix2 p q) = xa (ix2 p q) :=
    congrFun (shapeCast_self xa _) _
  have eb : broadcastTo S5000x128 (shapeCast S1x128 xb shapeCasts_S1x128_S1x128) broadcasts_S1x128_S5000x128 (ix2 p q)
      = xb (ix2 0 q) :=
    (broadcastTo_1b_ab_apply _ _ p q).trans (congrFun (shapeCast_self xb _) _)
  rw [ea, scaleColumn_apply, eb]

theorem btOut_of_reads (A : FVec Ideal S50000x128 .f32) (D : FVec Ideal S50000x1 .f32) (B : FVec Ideal S1x128 .f32)
    (jm i : S50000x128.Idx) (jd : S50000x1.Idx) (jb : S1x128.Idx)
    (hA : jm = i) (hD : jd = ix2 (i 0) 0) (hB : jb = ix2 0 (i 1)) :
    Ideal.tanh (A jm * D jd + B jb) = Cert.Spec.btOut A D B i := by
  subst hA hD hB; rfl

end Cert.KernelIdeal.Hand.Blk

end
-- ==== Proof.KI.Val0.lean ====
import proofs.«414499_j137438954180_2_alg».proof.Proof.KI.Reg0
import proofs.«414499_j137438954180_2_alg».proof.Proof.KI.Blk

set_option maxRecDepth 16384

noncomputable section

namespace Cert.KernelIdeal.Hand.V0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Hand.Blk

theorem stored_apply (x : Vec Ideal S5000x128 .f32) (w : Vec Ideal S128x128 .f32) (d : Vec Ideal S5000x1 .f32) (p : Fin 5000) (q : Fin 128) :
    k0_pay1 x w d (ix2 p q) = (∑ k : Fin 128, x (ix2 p k) * w (ix2 k q)) * d (ix2 p 0) := by
  unfold k0_pay1
  rw [truncf_apply, mulf_apply, blockProduct_apply, scaleColumn_apply]
  rfl

variable (V : (c : Dev nD) → (b : Ref sig .tc) → Buf (Elt Ideal) ((c : Thread nD τ).loc b))

theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem featBlock_apply (c : Dev nD) (t : Fin cfg0.N) (y : S5000x128.Idx) (i : S50000x128.Idx)
    (hr : (i 0).val = 5000 * t.val + (y 0).val) (hc : (i 1).val = (y 1).val) :
    (iblk0 V c 0 t : Vec Ideal S5000x128 .f32) y = (V c main_arg0 : S50000x128.Idx → EReal) i := by
  obtain ⟨eFr, eFc, -⟩ := blockIdx t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [eFr, hr]; omega
  | ⟨1, _⟩ => show win0_0.index t (1 : Fin 2) * 128 + 1 * (y 1).val = (i 1).val; rw [eFc, hc]; omega

theorem weightBlock_apply (c : Dev nD) (t : Fin cfg0.N) (y : S128x128.Idx) (i : S128x128.Idx)
    (hr : (i 0).val = (y 0).val) (hc : (i 1).val = (y 1).val) :
    (iblk0 V c 1 t : Vec Ideal S128x128 .f32) y = (V c main_arg3 : S128x128.Idx → EReal) i := by
  obtain ⟨-, -, eWr, eWc, -⟩ := blockIdx t
  unfold iblk0
  rw [View.read_apply]
  show V c main_arg3 _ = V c main_arg3 _
  congr 1
  funext a
  apply Fin.ext
  match a with
  | ⟨0, _⟩ => show win0_1.index t (0 : Fin 2) * 128 + 1 * (y 0).val = (i 0).val; rw [eWr, hr]; omega
  | ⟨1, _⟩ => show win0_1.index t (1 : Fin 2) * 128 + 1 * (y 1).val = (i 1).val; rw [eWc, hc]; omega

theorem degBlock_apply (c : Dev nD) (t : Fin cfg0.N) (y : S5000x1.Idx) (i : S50000x1.Idx)
    (hr : (i 0).val = 5000 * t.val + (y 0).val) (hc : (i 1).val = (y 1).val) :
    (iblk0 V c 2 t : Vec Ideal S5000x1 .f32) y = (V c main_v15 : S50000x1.Idx → EReal) i := by
  obtain ⟨-, -, -, -, eDr, eDc, -⟩ := blockIdx t
  unfold iblk0
  rw [View.read_apply]
  show V c main_v15 _ = V c main_v15 _
  congr 1
  funext a
  apply Fin.ext
  match a with
  | ⟨0, _⟩ => show win0_2.index t (0 : Fin 2) * 5000 + 1 * (y 0).val = (i 0).val; rw [eDr, hr]; omega
  | ⟨1, _⟩ => show win0_2.index t (1 : Fin 2) * 1 + 1 * (y 1).val = (i 1).val; rw [eDc, hc]; omega

theorem flushed_eq (c : Dev nD) (t : Fin cfg0.N) :
    (dat0 (F := Ideal) V c).flushed 3 t
      = ((cfg0.win 3).blk t).view.read (Elt Ideal) (Cert.Spec.msOut (V c main_arg0) (V c main_arg3) (V c main_v15)) := by
  show (cfg0.win 3).cut (grid0.coords t) ((dat0 (F := Ideal) V c).after 3 t) = _
  rw [after0_3]
  unfold out0_3
  rw [View.canon_unit_zero zeroOff]
  simp only [View.ld_unit_zero (S := S5000x128) zeroOff, View.ld_unit_zero (S := S128x128) zeroOff,
    View.ld_unit_zero (S := S5000x1) zeroOff]
  obtain ⟨-, -, -, -, -, -, eOr, eOc⟩ := blockIdx t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Cert.Spec.msOut (V c main_arg0) (V c main_arg3) (V c main_v15) (((cfg0.win 3).blk t).view.emb (ix2 p q))
  refine (stored_apply _ _ _ p q).trans ?_
  unfold Cert.Spec.msOut
  have hrow : ((((cfg0.win 3).blk t).view.emb (ix2 p q)) 0).val = 5000 * t.val + p.val := by
    show win0_3.index t (0 : Fin 2) * 5000 + 1 * p.val = _; rw [eOr]; omega
  have hcol : ((((cfg0.win 3).blk t).view.emb (ix2 p q)) 1).val = q.val := by
    show win0_3.index t (1 : Fin 2) * 128 + 1 * q.val = _; rw [eOc]; omega
  refine congrArg₂ (· * ·) (Finset.sum_congr rfl fun k _ => congrArg₂ (· * ·) ?_ ?_) ?_
  · exact featBlock_apply V c t (ix2 p k) _ hrow rfl
  · exact weightBlock_apply V c t (ix2 k q) _ rfl hcol
  · exact degBlock_apply V c t (ix2 p 0) _ hrow rfl

theorem mem_outBlock (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

theorem covered (i : S50000x128.Idx) :
    ∃ t : Fin cfg0.N, (cfg0.win 3).flush t = true ∧ i ∈ ((cfg0.win 3).blk t).view.set := by
  have hir : (i 0).val < 50000 := (i 0).isLt
  have hic : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, eOr, eOc⟩ := blockIdx t
  refine ⟨t, flush0_3 t, ?_⟩
  rw [mem_outBlock]
  intro a
  match a with
  | ⟨0, _⟩ => show win0_3.index t (0 : Fin 2) * 5000 ≤ (i 0).val ∧ (i 0).val < win0_3.index t (0 : Fin 2) * 5000 + 5000; rw [eOr, ht]; omega
  | ⟨1, _⟩ => show win0_3.index t (1 : Fin 2) * 128 ≤ (i 1).val ∧ (i 1).val < win0_3.index t (1 : Fin 2) * 128 + 128; rw [eOc]; omega

theorem arrAt0_eq (c : Dev nD) :
    (dat0 (F := Ideal) V c).arrAt 3 cfg0.N = Cert.Spec.msOut (V c main_arg0) (V c main_arg3) (V c main_v15) :=
  (dat0 (F := Ideal) V c).arrAt_eq_of_cover 3 (Cert.Spec.msOut (V c main_arg0) (V c main_arg3) (V c main_v15))
    (fun t _ => flushed_eq V c t) covered

end Cert.KernelIdeal.Hand.V0

end
-- ==== Proof.KI.Val1.lean ====
import proofs.«414499_j137438954180_2_alg».proof.Proof.KI.Reg1
import proofs.«414499_j137438954180_2_alg».proof.Proof.KI.Blk

set_option maxRecDepth 16384

noncomputable section

namespace Cert.KernelIdeal.Hand.V1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Hand.Blk

variable (V : (c : Dev nD) → (b : Ref sig .tc) → Buf (Elt Ideal) ((c : Thread nD τ).loc b))

theorem pay_apply (xa : Vec Ideal S5000x128 .f32) (xd : Vec Ideal S5000x1 .f32) (xb : Vec Ideal S1x128 .f32)
    (p : Fin 5000) (q : Fin 128) :
    k1_pay1 xa xd xb (ix2 p q) = Ideal.tanh (xa (ix2 p q) * xd (ix2 p 0) + xb (ix2 0 q)) := by
  unfold k1_pay1
  exact biasTanh_apply xa xd xb p q

theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem idx_onto : ∀ r : Fin 10, ∃ t : Fin cfg1.N, t.val = r.val :=
  (by decide +kernel : ∀ r : Fin 10, ∃ t : Fin grid1.N, t.val = r.val)

theorem flushed_eq (c : Dev nD) (t : Fin cfg1.N) :
    (dat1 (F := Ideal) V c).flushed 3 t
      = ((cfg1.win 3).blk t).view.read (Elt Ideal) (Cert.Spec.btOut (V c main_v27) (V c main_v28) (V c main_v29)) := by
  show (cfg1.win 3).cut (grid1.coords t) ((dat1 (F := Ideal) V c).after 3 t) = _
  rw [after1_3]
  unfold out1_3
  rw [View.canon_unit_zero zeroOff]
  simp only [View.ld_unit_zero (S := S5000x128) zeroOff, View.ld_unit_zero (S := S5000x1) zeroOff,
    View.ld_unit_zero (S := S1x128) zeroOff]
  obtain ⟨a_row, a_col, d_row, d_col, b_row, b_col, o_row, o_col⟩ := idx_rows t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = Cert.Spec.btOut (V c main_v27) (V c main_v28) (V c main_v29) (((cfg1.win 3).blk t).view.emb (ix2 p q))
  refine (pay_apply (iblk1 V c 0 t) (iblk1 V c 1 t) (iblk1 V c 2 t) p q).trans ?_
  have hp : p.val < 5000 := p.isLt
  have hq : q.val < 128 := q.isLt
  have hA : (((cfg1.win 0).blk t).view.emb (ix2 p q) : S50000x128.Idx) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have hD : (((cfg1.win 1).blk t).view.emb (ix2 p (0 : Fin 1)) : S50000x1.Idx)
      = ix2 (n0 := 50000) (n1 := 1) ((((cfg1.win 3).blk t).view.emb (ix2 p q) : S50000x128.Idx) 0) 0 := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have hB : (((cfg1.win 2).blk t).view.emb (ix2 (0 : Fin 1) q) : S1x128.Idx)
      = ix2 (n0 := 1) (n1 := 128) 0 ((((cfg1.win 3).blk t).view.emb (ix2 p q) : S50000x128.Idx) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  exact btOut_of_reads (V c main_v27) (V c main_v28) (V c main_v29)
    (((cfg1.win 0).blk t).view.emb (ix2 p q)) (((cfg1.win 3).blk t).view.emb (ix2 p q))
    (((cfg1.win 1).blk t).view.emb (ix2 p (0 : Fin 1))) (((cfg1.win 2).blk t).view.emb (ix2 (0 : Fin 1) q)) hA hD hB

theorem mem_blk (t : Fin cfg1.N) (i : S50000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v30).slice (win1_3.rect t)).set ↔ _
  rw [View.set_slice_whole, Rect.mem_set_unit]
  exact Iff.rfl

theorem cover (i : S50000x128.Idx) :
    ∃ t : Fin cfg1.N, (cfg1.win 3).flush t = true ∧ i ∈ ((cfg1.win 3).blk t).view.set := by
  have hrow : (i 0).val < 50000 := (i 0).isLt
  have hcol : (i 1).val < 128 := (i 1).isLt
  obtain ⟨t, ht⟩ := idx_onto ⟨(i 0).val / 5000, by omega⟩
  have ht' : t.val = (i 0).val / 5000 := ht
  obtain ⟨a_row, a_col, d_row, d_col, b_row, b_col, o_row, o_col⟩ := idx_rows t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

theorem arrAt1_eq (c : Dev nD) :
    (dat1 (F := Ideal) V c).arrAt 3 cfg1.N = Cert.Spec.btOut (V c main_v27) (V c main_v28) (V c main_v29) :=
  (dat1 (F := Ideal) V c).arrAt_eq_of_cover 3 (Cert.Spec.btOut (V c main_v27) (V c main_v28) (V c main_v29))
    (fun t _ => flushed_eq V c t) cover

end Cert.KernelIdeal.Hand.V1

end
-- ==== Proof.KI.Val2.lean ====
import proofs.«414499_j137438954180_2_alg».proof.Proof.KI.Reg2
import proofs.«414499_j137438954180_2_alg».proof.Proof.KI.Blk

set_option maxRecDepth 16384

noncomputable section

namespace Cert.KernelIdeal.Hand.V2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Hand.Blk

theorem stored_apply (x : Vec Ideal S5000x128 .f32) (w : Vec Ideal S128x128 .f32) (d : Vec Ideal S5000x1 .f32) (p : Fin 5000) (q : Fin 128) :
    k2_pay1 x w d (ix2 p q) = (∑ k : Fin 128, x (ix2 p k) * w (ix2 k q)) * d (ix2 p 0) := by
  unfold k2_pay1
  rw [shapeCast_self x]
  rw [truncf_apply, mulf_apply, blockProduct_apply, scaleColumn_apply]
  rfl

variable (V : (c : Dev nD) → (b : Ref sig .tc) → Buf (Elt Ideal) ((c : Thread nD τ).loc b))

theorem blockIdx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem featBlock_apply (c : Dev nD) (t : Fin cfg2.N) (y : S5000x128.Idx) (i : S50000x128.Idx)
    (hr : (i 0).val = 5000 * t.val + (y 0).val) (hc : (i 1).val = (y 1).val) :
    (iblk2 V c 0 t : Vec Ideal S5000x128 .f32) y = (V c main_v30 : S50000x128.Idx → EReal) i := by
  obtain ⟨eFr, eFc, -⟩ := blockIdx t
  unfold iblk2
  rw [View.read_apply]
  show V c main_v30 _ = V c main_v30 _
  congr 1
  funext a
  apply Fin.ext
  match a with
  | ⟨0, _⟩ => show win2_0.index t (0 : Fin 2) * 5000 + 1 * (y 0).val = (i 0).val; rw [eFr, hr]; omega
  | ⟨1, _⟩ => show win2_0.index t (1 : Fin 2) * 128 + 1 * (y 1).val = (i 1).val; rw [eFc, hc]; omega

theorem weightBlock_apply (c : Dev nD) (t : Fin cfg2.N) (y : S128x128.Idx) (i : S128x128.Idx)
    (hr : (i 0).val = (y 0).val) (hc : (i 1).val = (y 1).val) :
    (iblk2 V c 1 t : Vec Ideal S128x128 .f32) y = (V c main_arg5 : S128x128.Idx → EReal) i := by
  obtain ⟨-, -, eWr, eWc, -⟩ := blockIdx t
  unfold iblk2
  rw [View.read_apply]
  show V c main_arg5 _ = V c main_arg5 _
  congr 1
  funext a
  apply Fin.ext
  match a with
  | ⟨0, _⟩ => show win2_1.index t (0 : Fin 2) * 128 + 1 * (y 0).val = (i 0).val; rw [eWr, hr]; omega
  | ⟨1, _⟩ => show win2_1.index t (1 : Fin 2) * 128 + 1 * (y 1).val = (i 1).val; rw [eWc, hc]; omega

theorem degBlock_apply (c : Dev nD) (t : Fin cfg2.N) (y : S5000x1.Idx) (i : S50000x1.Idx)
    (hr : (i 0).val = 5000 * t.val + (y 0).val) (hc : (i 1).val = (y 1).val) :
    (iblk2 V c 2 t : Vec Ideal S5000x1 .f32) y = (V c main_v31 : S50000x1.Idx → EReal) i := by
  obtain ⟨-, -, -, -, eDr, eDc, -⟩ := blockIdx t
  unfold iblk2
  rw [View.read_apply]
  show V c main_v31 _ = V c main_v31 _
  congr 1
  funext a
  apply Fin.ext
  match a with
  | ⟨0, _⟩ => show win2_2.index t (0 : Fin 2) * 5000 + 1 * (y 0).val = (i 0).val; rw [eDr, hr]; omega
  | ⟨1, _⟩ => show win2_2.index t (1 : Fin 2) * 1 + 1 * (y 1).val = (i 1).val; rw [eDc, hc]; omega

theorem flushed_eq (c : Dev nD) (t : Fin cfg2.N) :
    (dat2 (F := Ideal) V c).flushed 3 t
      = ((cfg2.win 3).blk t).view.read (Elt Ideal) (Cert.Spec.msOut (V c main_v30) (V c main_arg5) (V c main_v31)) := by
  show (cfg2.win 3).cut (grid2.coords t) ((dat2 (F := Ideal) V c).after 3 t) = _
  rw [after2_3]
  unfold out2_3
  rw [View.canon_unit_zero zeroOff]
  simp only [View.ld_unit_zero (S := S5000x128) zeroOff, View.ld_unit_zero (S := S128x128) zeroOff,
    View.ld_unit_zero (S := S5000x1) zeroOff]
  obtain ⟨-, -, -, -, -, -, eOr, eOc⟩ := blockIdx t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = Cert.Spec.msOut (V c main_v30) (V c main_arg5) (V c main_v31) (((cfg2.win 3).blk t).view.emb (ix2 p q))
  refine (stored_apply _ _ _ p q).trans ?_
  unfold Cert.Spec.msOut
  have hrow : ((((cfg2.win 3).blk t).view.emb (ix2 p q)) 0).val = 5000 * t.val + p.val := by
    show win2_3.index t (0 : Fin 2) * 5000 + 1 * p.val = _; rw [eOr]; omega
  have hcol : ((((cfg2.win 3).blk t).view.emb (ix2 p q)) 1).val = q.val := by
    show win2_3.index t (1 : Fin 2) * 128 + 1 * q.val = _; rw [eOc]; omega
  refine congrArg₂ (· * ·) (Finset.sum_congr rfl fun k _ => congrArg₂ (· * ·) ?_ ?_) ?_
  · exact featBlock_apply V c t (ix2 p k) _ hrow rfl
  · exact weightBlock_apply V c t (ix2 k q) _ rfl hcol
  · exact degBlock_apply V c t (ix2 p 0) _ hrow rfl

theorem mem_outBlock (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v32).slice (win2_3.rect t)).set ↔ _
  rw [View.set_slice_whole, Rect.mem_set_unit]
  exact Iff.rfl

theorem covered (i : S50000x128.Idx) :
    ∃ t : Fin cfg2.N, (cfg2.win 3).flush t = true ∧ i ∈ ((cfg2.win 3).blk t).view.set := by
  have hir : (i 0).val < 50000 := (i 0).isLt
  have hic : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, eOr, eOc⟩ := blockIdx t
  refine ⟨t, flush2_3 t, ?_⟩
  rw [mem_outBlock]
  intro a
  match a with
  | ⟨0, _⟩ => show win2_3.index t (0 : Fin 2) * 5000 ≤ (i 0).val ∧ (i 0).val < win2_3.index t (0 : Fin 2) * 5000 + 5000; rw [eOr, ht]; omega
  | ⟨1, _⟩ => show win2_3.index t (1 : Fin 2) * 128 ≤ (i 1).val ∧ (i 1).val < win2_3.index t (1 : Fin 2) * 128 + 128; rw [eOc]; omega

theorem arrAt2_eq (c : Dev nD) :
    (dat2 (F := Ideal) V c).arrAt 3 cfg2.N = Cert.Spec.msOut (V c main_v30) (V c main_arg5) (V c main_v31) :=
  (dat2 (F := Ideal) V c).arrAt_eq_of_cover 3 (Cert.Spec.msOut (V c main_v30) (V c main_arg5) (V c main_v31))
    (fun t _ => flushed_eq V c t) covered

end Cert.KernelIdeal.Hand.V2

end
-- ==== Proof.KI.Val3.lean ====
import proofs.«414499_j137438954180_2_alg».proof.Proof.KI.Reg3
import proofs.«414499_j137438954180_2_alg».proof.Proof.KI.Blk

set_option maxRecDepth 16384

noncomputable section

namespace Cert.KernelIdeal.Hand.V3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Hand.Blk

variable (V : (c : Dev nD) → (b : Ref sig .tc) → Buf (Elt Ideal) ((c : Thread nD τ).loc b))

theorem pay_apply (xa : Vec Ideal S5000x128 .f32) (xd : Vec Ideal S5000x1 .f32) (xb : Vec Ideal S1x128 .f32)
    (p : Fin 5000) (q : Fin 128) :
    k3_pay1 xa xd xb (ix2 p q) = Ideal.tanh (xa (ix2 p q) * xd (ix2 p 0) + xb (ix2 0 q)) := by
  unfold k3_pay1
  exact biasTanh_apply xa xd xb p q

theorem idx_rows : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem idx_onto : ∀ r : Fin 10, ∃ t : Fin cfg3.N, t.val = r.val :=
  (by decide +kernel : ∀ r : Fin 10, ∃ t : Fin grid3.N, t.val = r.val)

theorem flushed_eq (c : Dev nD) (t : Fin cfg3.N) :
    (dat3 (F := Ideal) V c).flushed 3 t
      = ((cfg3.win 3).blk t).view.read (Elt Ideal) (Cert.Spec.btOut (V c main_v43) (V c main_v44) (V c main_v45)) := by
  show (cfg3.win 3).cut (grid3.coords t) ((dat3 (F := Ideal) V c).after 3 t) = _
  rw [after3_3]
  unfold out3_3
  rw [View.canon_unit_zero zeroOff]
  simp only [View.ld_unit_zero (S := S5000x128) zeroOff, View.ld_unit_zero (S := S5000x1) zeroOff,
    View.ld_unit_zero (S := S1x128) zeroOff]
  obtain ⟨a_row, a_col, d_row, d_col, b_row, b_col, o_row, o_col⟩ := idx_rows t
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q)
    = Cert.Spec.btOut (V c main_v43) (V c main_v44) (V c main_v45) (((cfg3.win 3).blk t).view.emb (ix2 p q))
  refine (pay_apply (iblk3 V c 0 t) (iblk3 V c 1 t) (iblk3 V c 2 t) p q).trans ?_
  have hp : p.val < 5000 := p.isLt
  have hq : q.val < 128 := q.isLt
  have hA : (((cfg3.win 0).blk t).view.emb (ix2 p q) : S50000x128.Idx) = ((cfg3.win 3).blk t).view.emb (ix2 p q) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * q.val = win3_3.index t (1 : Fin 2) * 128 + 1 * q.val; omega
  have hD : (((cfg3.win 1).blk t).view.emb (ix2 p (0 : Fin 1)) : S50000x1.Idx)
      = ix2 (n0 := 50000) (n1 := 1) ((((cfg3.win 3).blk t).view.emb (ix2 p q) : S50000x128.Idx) 0) 0 := by
    funext a; apply Fin.ext
    match a with
    | ⟨0, _⟩ => show win3_1.index t (0 : Fin 2) * 5000 + 1 * p.val = win3_3.index t (0 : Fin 2) * 5000 + 1 * p.val; omega
    | ⟨1, _⟩ => show win3_1.index t (1 : Fin 2) * 1 + 1 * 0 = 0; omega
  have hB : (((cfg3.win 2).blk t).view.emb (ix2 (0 : Fin 1) q) : S1x128.Idx)
      = ix2 (n0 := 1) (n1 := 128) 0 ((((cfg3.win 3).blk t).view.emb (ix2 p q) : S50000x128.Idx) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  exact btOut_of_reads (V c main_v43) (V c main_v44) (V c main_v45)
    (((cfg3.win 0).blk t).view.emb (ix2 p q)) (((cfg3.win 3).blk t).view.emb (ix2 p q))
    (((cfg3.win 1).blk t).view.emb (ix2 p (0 : Fin 1))) (((cfg3.win 2).blk t).view.emb (ix2 (0 : Fin 1) q)) hA hD hB

theorem mem_blk (t : Fin cfg3.N) (i : S50000x128.Idx) :
    i ∈ ((cfg3.win 3).blk t).view.set
      ↔ ∀ a : Fin 2, win3_3.index t a * S5000x128.size a ≤ (i a).val ∧ (i a).val < win3_3.index t a * S5000x128.size a + S5000x128.size a := by
  show i ∈ ((View.whole main_v46).slice (win3_3.rect t)).set ↔ _
  rw [View.set_slice_whole, Rect.mem_set_unit]
  exact Iff.rfl

theorem cover (i : S50000x128.Idx) :
    ∃ t : Fin cfg3.N, (cfg3.win 3).flush t = true ∧ i ∈ ((cfg3.win 3).blk t).view.set := by
  have hrow : (i 0).val < 50000 := (i 0).isLt
  have hcol : (i 1).val < 128 := (i 1).isLt
  obtain ⟨t, ht⟩ := idx_onto ⟨(i 0).val / 5000, by omega⟩
  have ht' : t.val = (i 0).val / 5000 := ht
  obtain ⟨a_row, a_col, d_row, d_col, b_row, b_col, o_row, o_col⟩ := idx_rows t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

theorem arrAt3_eq (c : Dev nD) :
    (dat3 (F := Ideal) V c).arrAt 3 cfg3.N = Cert.Spec.btOut (V c main_v43) (V c main_v44) (V c main_v45) :=
  (dat3 (F := Ideal) V c).arrAt_eq_of_cover 3 (Cert.Spec.btOut (V c main_v43) (V c main_v44) (V c main_v45))
    (fun t _ => flushed_eq V c t) cover

end Cert.KernelIdeal.Hand.V3

end
-- ==== Proof.KI.Val4.lean ====
import proofs.«414499_j137438954180_2_alg».proof.Proof.KI.Reg4
import proofs.«414499_j137438954180_2_alg».proof.Proof.KI.Blk

set_option maxRecDepth 16384

noncomputable section

namespace Cert.KernelIdeal.Hand.V4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Hand.Blk

theorem stored_apply (x : Vec Ideal S5000x128 .f32) (w : Vec Ideal S128x128 .f32) (d : Vec Ideal S5000x1 .f32) (p : Fin 5000) (q : Fin 128) :
    k4_pay1 x w d (ix2 p q) = (∑ k : Fin 128, x (ix2 p k) * w (ix2 k q)) * d (ix2 p 0) := by
  unfold k4_pay1
  rw [shapeCast_self x]
  rw [truncf_apply, mulf_apply, blockProduct_apply, scaleColumn_apply]
  rfl

variable (V : (c : Dev nD) → (b : Ref sig .tc) → Buf (Elt Ideal) ((c : Thread nD τ).loc b))

theorem blockIdx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

theorem featBlock_apply (c : Dev nD) (t : Fin cfg4.N) (y : S5000x128.Idx) (i : S50000x128.Idx)
    (hr : (i 0).val = 5000 * t.val + (y 0).val) (hc : (i 1).val = (y 1).val) :
    (iblk4 V c 0 t : Vec Ideal S5000x128 .f32) y = (V c main_v46 : S50000x128.Idx → EReal) i := by
  obtain ⟨eFr, eFc, -⟩ := blockIdx t
  unfold iblk4
  rw [View.read_apply]
  show V c main_v46 _ = V c main_v46 _
  congr 1
  funext a
  apply Fin.ext
  match a with
  | ⟨0, _⟩ => show win4_0.index t (0 : Fin 2) * 5000 + 1 * (y 0).val = (i 0).val; rw [eFr, hr]; omega
  | ⟨1, _⟩ => show win4_0.index t (1 : Fin 2) * 128 + 1 * (y 1).val = (i 1).val; rw [eFc, hc]; omega

theorem weightBlock_apply (c : Dev nD) (t : Fin cfg4.N) (y : S128x128.Idx) (i : S128x128.Idx)
    (hr : (i 0).val = (y 0).val) (hc : (i 1).val = (y 1).val) :
    (iblk4 V c 1 t : Vec Ideal S128x128 .f32) y = (V c main_arg7 : S128x128.Idx → EReal) i := by
  obtain ⟨-, -, eWr, eWc, -⟩ := blockIdx t
  unfold iblk4
  rw [View.read_apply]
  show V c main_arg7 _ = V c main_arg7 _
  congr 1
  funext a
  apply Fin.ext
  match a with
  | ⟨0, _⟩ => show win4_1.index t (0 : Fin 2) * 128 + 1 * (y 0).val = (i 0).val; rw [eWr, hr]; omega
  | ⟨1, _⟩ => show win4_1.index t (1 : Fin 2) * 128 + 1 * (y 1).val = (i 1).val; rw [eWc, hc]; omega

theorem degBlock_apply (c : Dev nD) (t : Fin cfg4.N) (y : S5000x1.Idx) (i : S50000x1.Idx)
    (hr : (i 0).val = 5000 * t.val + (y 0).val) (hc : (i 1).val = (y 1).val) :
    (iblk4 V c 2 t : Vec Ideal S5000x1 .f32) y = (V c main_v47 : S50000x1.Idx → EReal) i := by
  obtain ⟨-, -, -, -, eDr, eDc, -⟩ := blockIdx t
  unfold iblk4
  rw [View.read_apply]
  show V c main_v47 _ = V c main_v47 _
  congr 1
  funext a
  apply Fin.ext
  match a with
  | ⟨0, _⟩ => show win4_2.index t (0 : Fin 2) * 5000 + 1 * (y 0).val = (i 0).val; rw [eDr, hr]; omega
  | ⟨1, _⟩ => show win4_2.index t (1 : Fin 2) * 1 + 1 * (y 1).val = (i 1).val; rw [eDc, hc]; omega

theorem flushed_eq (c : Dev nD) (t : Fin cfg4.N) :
    (dat4 (F := Ideal) V c).flushed 3 t
      = ((cfg4.win 3).blk t).view.read (Elt Ideal) (Cert.Spec.msOut (V c main_v46) (V c main_arg7) (V c main_v47)) := by
  show (cfg4.win 3).cut (grid4.coords t) ((dat4 (F := Ideal) V c).after 3 t) = _
  rw [after4_3]
  unfold out4_3
  rw [View.canon_unit_zero zeroOff]
  simp only [View.ld_unit_zero (S := S5000x128) zeroOff, View.ld_unit_zero (S := S128x128) zeroOff,
    View.ld_unit_zero (S := S5000x1) zeroOff]
  obtain ⟨-, -, -, -, -, -, eOr, eOc⟩ := blockIdx t
  funext j
  obtain ⟨p, q, rfl⟩ : ∃ (p : Fin 5000) (q : Fin 128), j = ix2 p q := ⟨j 0, j 1, eq_ix2 j⟩
  show k4_pay1 (iblk4 V c 0 t) (iblk4 V c 1 t) (iblk4 V c 2 t) (ix2 p q)
    = Cert.Spec.msOut (V c main_v46) (V c main_arg7) (V c main_v47) (((cfg4.win 3).blk t).view.emb (ix2 p q))
  refine (stored_apply _ _ _ p q).trans ?_
  unfold Cert.Spec.msOut
  have hrow : ((((cfg4.win 3).blk t).view.emb (ix2 p q)) 0).val = 5000 * t.val + p.val := by
    show win4_3.index t (0 : Fin 2) * 5000 + 1 * p.val = _; rw [eOr]; omega
  have hcol : ((((cfg4.win 3).blk t).view.emb (ix2 p q)) 1).val = q.val := by
    show win4_3.index t (1 : Fin 2) * 128 + 1 * q.val = _; rw [eOc]; omega
  refine congrArg₂ (· * ·) (Finset.sum_congr rfl fun k _ => congrArg₂ (· * ·) ?_ ?_) ?_
  · exact featBlock_apply V c t (ix2 p k) _ hrow rfl
  · exact weightBlock_apply V c t (ix2 k q) _ rfl hcol
  · exact degBlock_apply V c t (ix2 p 0) _ hrow rfl

theorem mem_outBlock (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v48).slice (win4_3.rect t)).set ↔ _
  rw [View.set_slice_whole, Rect.mem_set_unit]
  exact Iff.rfl

theorem covered (i : S50000x128.Idx) :
    ∃ t : Fin cfg4.N, (cfg4.win 3).flush t = true ∧ i ∈ ((cfg4.win 3).blk t).view.set := by
  have hir : (i 0).val < 50000 := (i 0).isLt
  have hic : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, eOr, eOc⟩ := blockIdx t
  refine ⟨t, flush4_3 t, ?_⟩
  rw [mem_outBlock]
  intro a
  match a with
  | ⟨0, _⟩ => show win4_3.index t (0 : Fin 2) * 5000 ≤ (i 0).val ∧ (i 0).val < win4_3.index t (0 : Fin 2) * 5000 + 5000; rw [eOr, ht]; omega
  | ⟨1, _⟩ => show win4_3.index t (1 : Fin 2) * 128 ≤ (i 1).val ∧ (i 1).val < win4_3.index t (1 : Fin 2) * 128 + 128; rw [eOc]; omega

theorem arrAt4_eq (c : Dev nD) :
    (dat4 (F := Ideal) V c).arrAt 3 cfg4.N = Cert.Spec.msOut (V c main_v46) (V c main_arg7) (V c main_v47) :=
  (dat4 (F := Ideal) V c).arrAt_eq_of_cover 3 (Cert.Spec.msOut (V c main_v46) (V c main_arg7) (V c main_v47))
    (fun t _ => flushed_eq V c t) covered

end Cert.KernelIdeal.Hand.V4

end
-- ==== Proof.KI.Val5.lean ====
import proofs.«414499_j137438954180_2_alg».proof.Proof.KI.Reg5
import proofs.«414499_j137438954180_2_alg».proof.Proof.KI.Blk

set_option maxRecDepth 16384

noncomputable section

namespace Cert.KernelIdeal.Hand.V5

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Hand.Blk

variable (V : (c : Dev nD) → (b : Ref sig .tc) → Buf (Elt Ideal) ((c : Thread nD τ).loc b))

theorem pay_apply (xa : Vec Ideal S5000x128 .f32) (xd : Vec Ideal S5000x1 .f32) (xb : Vec Ideal S1x128 .f32)
    (p : Fin 5000) (q : Fin 128) :
    k5_pay1 xa xd xb (ix2 p q) = Ideal.tanh (xa (ix2 p q) * xd (ix2 p 0) + xb (ix2 0 q)) := by
  unfold k5_pay1
  exact biasTanh_apply xa xd xb p q

theorem idx_rows : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem idx_onto : ∀ r : Fin 10, ∃ t : Fin cfg5.N, t.val = r.val :=
  (by decide +kernel : ∀ r : Fin 10, ∃ t : Fin grid5.N, t.val = r.val)

theorem flushed_eq (c : Dev nD) (t : Fin cfg5.N) :
    (dat5 (F := Ideal) V c).flushed 3 t
      = ((cfg5.win 3).blk t).view.read (Elt Ideal) (Cert.Spec.btOut (V c main_v59) (V c main_v60) (V c main_v61)) := by
  show (cfg5.win 3).cut (grid5.coords t) ((dat5 (F := Ideal) V c).after 3 t) = _
  rw [after5_3]
  unfold out5_3
  rw [View.canon_unit_zero zeroOff]
  simp only [View.ld_unit_zero (S := S5000x128) zeroOff, View.ld_unit_zero (S := S5000x1) zeroOff,
    View.ld_unit_zero (S := S1x128) zeroOff]
  obtain ⟨a_row, a_col, d_row, d_col, b_row, b_col, o_row, o_col⟩ := idx_rows t
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (ix2 p q)
    = Cert.Spec.btOut (V c main_v59) (V c main_v60) (V c main_v61) (((cfg5.win 3).blk t).view.emb (ix2 p q))
  refine (pay_apply (iblk5 V c 0 t) (iblk5 V c 1 t) (iblk5 V c 2 t) p q).trans ?_
  have hp : p.val < 5000 := p.isLt
  have hq : q.val < 128 := q.isLt
  have hA : (((cfg5.win 0).blk t).view.emb (ix2 p q) : S50000x128.Idx) = ((cfg5.win 3).blk t).view.emb (ix2 p q) := by
    funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 128 + 1 * q.val = win5_3.index t (1 : Fin 2) * 128 + 1 * q.val; omega
  have hD : (((cfg5.win 1).blk t).view.emb (ix2 p (0 : Fin 1)) : S50000x1.Idx)
      = ix2 (n0 := 50000) (n1 := 1) ((((cfg5.win 3).blk t).view.emb (ix2 p q) : S50000x128.Idx) 0) 0 := by
    funext a; apply Fin.ext
    match a with
    | ⟨0, _⟩ => show win5_1.index t (0 : Fin 2) * 5000 + 1 * p.val = win5_3.index t (0 : Fin 2) * 5000 + 1 * p.val; omega
    | ⟨1, _⟩ => show win5_1.index t (1 : Fin 2) * 1 + 1 * 0 = 0; omega
  have hB : (((cfg5.win 2).blk t).view.emb (ix2 (0 : Fin 1) q) : S1x128.Idx)
      = ix2 (n0 := 1) (n1 := 128) 0 ((((cfg5.win 3).blk t).view.emb (ix2 p q) : S50000x128.Idx) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  exact btOut_of_reads (V c main_v59) (V c main_v60) (V c main_v61)
    (((cfg5.win 0).blk t).view.emb (ix2 p q)) (((cfg5.win 3).blk t).view.emb (ix2 p q))
    (((cfg5.win 1).blk t).view.emb (ix2 p (0 : Fin 1))) (((cfg5.win 2).blk t).view.emb (ix2 (0 : Fin 1) q)) hA hD hB

theorem mem_blk (t : Fin cfg5.N) (i : S50000x128.Idx) :
    i ∈ ((cfg5.win 3).blk t).view.set
      ↔ ∀ a : Fin 2, win5_3.index t a * S5000x128.size a ≤ (i a).val ∧ (i a).val < win5_3.index t a * S5000x128.size a + S5000x128.size a := by
  show i ∈ ((View.whole main_v62).slice (win5_3.rect t)).set ↔ _
  rw [View.set_slice_whole, Rect.mem_set_unit]
  exact Iff.rfl

theorem cover (i : S50000x128.Idx) :
    ∃ t : Fin cfg5.N, (cfg5.win 3).flush t = true ∧ i ∈ ((cfg5.win 3).blk t).view.set := by
  have hrow : (i 0).val < 50000 := (i 0).isLt
  have hcol : (i 1).val < 128 := (i 1).isLt
  obtain ⟨t, ht⟩ := idx_onto ⟨(i 0).val / 5000, by omega⟩
  have ht' : t.val = (i 0).val / 5000 := ht
  obtain ⟨a_row, a_col, d_row, d_col, b_row, b_col, o_row, o_col⟩ := idx_rows t
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

theorem arrAt5_eq (c : Dev nD) :
    (dat5 (F := Ideal) V c).arrAt 3 cfg5.N = Cert.Spec.btOut (V c main_v59) (V c main_v60) (V c main_v61) :=
  (dat5 (F := Ideal) V c).arrAt_eq_of_cover 3 (Cert.Spec.btOut (V c main_v59) (V c main_v60) (V c main_v61))
    (fun t _ => flushed_eq V c t) cover

end Cert.KernelIdeal.Hand.V5

end
-- ==== Proof.KI.Val6.lean ====
import proofs.«414499_j137438954180_2_alg».proof.Proof.KI.Reg6
import proofs.«414499_j137438954180_2_alg».proof.Proof.Spec
import Idealize.ShloMosaic.Lib.ValueIdx
import Idealize.ShloMosaic.Lib.ValueLayout
import Idealize.ShloMosaic.PureOps.Ideal.Laws
import Mathlib.Algebra.BigOperators.Intervals

set_option maxRecDepth 16384

noncomputable section

namespace Cert.KernelIdeal.Hand.V6

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem reset6_apply (i : S512x128.Idx) : k6_pay1 (F := Ideal) i = 0 := by
  unfold k6_pay1
  rw [shapeCast_self, broadcast_apply]
  exact Ideal.ofBits_zero_f32

theorem equalBit_toReal (a b : BitVec 32) :
    FloatOps.sitofp (F := Ideal) .f32 ((IntOp.cmpi .eq a b).setWidth 32) = if a = b then (1 : EReal) else 0 := by
  by_cases h : a = b
  · rw [if_pos h, IntOp.cmpi_eq.mpr h]
    show (((((1#1 : BitVec 1).setWidth 32).toInt : ℤ) : ℝ) : EReal) = 1
    rw [show ((1#1 : BitVec 1).setWidth 32).toInt = 1 from by decide]
    norm_num
  · rw [if_neg h, eq_zero_of_ne_one (fun e => h (IntOp.cmpi_eq.mp e))]
    show (((((0#1 : BitVec 1).setWidth 32).toInt : ℤ) : ℝ) : EReal) = 0
    rw [show ((0#1 : BitVec 1).setWidth 32).toInt = 0 from by decide]
    norm_num

theorem member6_apply (ids : IVec S5000x1 32) (r : Fin 5000) (g : Fin 512) :
    (truncf .bf16 (sitofp (F := Ideal) .f32 (extui 32 (cmpi .eq
        (broadcastTo S5000x512 (shapeCast S5000x1 ids shapeCasts_S5000x1_S5000x1) broadcasts_S5000x1_S5000x512)
        (iota .tc S5000x512 32 [1] iota_S5000x512_d1_w32)) natLt_1_32)) bitsLt_bf16_f32 : FVec Ideal S5000x512 .bf16) (ix2 r g)
      = if ids (ix2 r 0) = BitVec.ofNat 32 g.val then (1 : EReal) else 0 := by
  rw [truncf_apply, sitofp_apply, extui_apply]
  show FloatOps.sitofp (F := Ideal) .f32 ((IntOp.cmpi .eq
      (broadcastTo S5000x512 (shapeCast S5000x1 ids shapeCasts_S5000x1_S5000x1) broadcasts_S5000x1_S5000x512 (ix2 r g))
      (iota .tc S5000x512 32 [1] iota_S5000x512_d1_w32 (ix2 r g))).setWidth 32) = _
  rw [equalBit_toReal, shapeCast_self, iota_single_apply,
    broadcastTo_apply ids broadcasts_S5000x1_S5000x512 (ix2 r g) (ix2 r 0) (fun a => match a with
      | ⟨0, _⟩ => by show r.val = if (5000 : Nat) = 1 then 0 else r.val; rw [if_neg (by decide)]
      | ⟨1, _⟩ => by show (0 : Nat) = if (1 : Nat) = 1 then 0 else _; rw [if_pos rfl])]

theorem lhsRow6 (i : S512x128.Idx) (r : dot_S5000x512_S5000x128_S512x128_0_0_1_1_n_n.contr.Idx) :
    (dot_S5000x512_S5000x128_S512x128_0_0_1_1_n_n.lhsIdx i r 0).val = (r ⟨0, by decide⟩).val :=
  dot_S5000x512_S5000x128_S512x128_0_0_1_1_n_n.lhsIdx_val_of_single rfl i r
theorem lhsCol6 (i : S512x128.Idx) (r : dot_S5000x512_S5000x128_S512x128_0_0_1_1_n_n.contr.Idx) :
    (dot_S5000x512_S5000x128_S512x128_0_0_1_1_n_n.lhsIdx i r 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem rhsRow6 (i : S512x128.Idx) (r : dot_S5000x512_S5000x128_S512x128_0_0_1_1_n_n.contr.Idx) :
    (dot_S5000x512_S5000x128_S512x128_0_0_1_1_n_n.rhsIdx i r 0).val = (r ⟨0, by decide⟩).val :=
  dot_S5000x512_S5000x128_S512x128_0_0_1_1_n_n.rhsIdx_val_of_single rfl i r
theorem rhsCol6 (i : S512x128.Idx) (r : dot_S5000x512_S5000x128_S512x128_0_0_1_1_n_n.contr.Idx) :
    (dot_S5000x512_S5000x128_S512x128_0_0_1_1_n_n.rhsIdx i r 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

theorem blockProduct6_apply (m : FVec Ideal S5000x512 .bf16) (x : FVec Ideal S5000x128 .bf16) (g : Fin 512) (d : Fin 128) :
    matmul dot_S5000x512_S5000x128_S512x128_0_0_1_1_n_n none m x (constant (F := Ideal) S512x128 .f32 0x00000000#32) (ix2 g d)
      = ∑ r : Fin 5000, m (ix2 r g) * x (ix2 r d) := by
  simp only [matmul]
  rw [Ideal.matmul_constant_zero_apply, ← Equiv.sum_comp (contrEquiv1 dot_S5000x512_S5000x128_S512x128_0_0_1_1_n_n 5000 rfl rfl).symm]
  refine Finset.sum_congr rfl fun r _ => ?_
  have hr := contrEquiv1_symm_val dot_S5000x512_S5000x128_S512x128_0_0_1_1_n_n 5000 rfl rfl r
  have el : dot_S5000x512_S5000x128_S512x128_0_0_1_1_n_n.lhsIdx (ix2 g d) ((contrEquiv1 dot_S5000x512_S5000x128_S512x128_0_0_1_1_n_n 5000 rfl rfl).symm r) = ix2 r g := funext fun a => Fin.ext (by
    match a with
    | ⟨0, _⟩ => exact (lhsRow6 _ _).trans hr
    | ⟨1, _⟩ => exact lhsCol6 _ _)
  have er : dot_S5000x512_S5000x128_S512x128_0_0_1_1_n_n.rhsIdx (ix2 g d) ((contrEquiv1 dot_S5000x512_S5000x128_S512x128_0_0_1_1_n_n 5000 rfl rfl).symm r) = ix2 r d := funext fun a => Fin.ext (by
    match a with
    | ⟨0, _⟩ => exact (rhsRow6 _ _).trans hr
    | ⟨1, _⟩ => exact rhsCol6 _ _)
  rw [el, er]

theorem step6_apply (ids : Vec Ideal S5000x1 .i32) (x : Vec Ideal S5000x128 .f32) (a : Vec Ideal S512x128 .f32)
    (g : Fin 512) (d : Fin 128) :
    k6_pay2 ids x a (ix2 g d)
      = a (ix2 g d) + ∑ r : Fin 5000, (if ids (ix2 r 0) = BitVec.ofNat 32 g.val then (1 : EReal) else 0) * x (ix2 r d) := by
  unfold k6_pay2
  rw [shapeCast_self, addf_apply, blockProduct6_apply]
  refine congrArg (a (ix2 g d) + ·) (Finset.sum_congr rfl fun r _ => ?_)
  rw [member6_apply, truncf_apply, shapeCast_self]

variable (V : (c : Dev nD) → (b : Ref sig .tc) → Buf (Elt Ideal) ((c : Thread nD τ).loc b))

theorem points6 : cfg6.N = 10 := N_6

theorem blockIdx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

abbrev xarr6 (c : Dev nD) : Vec Ideal S50000x128 .f32 := V c main_v62
abbrev idarr6 (c : Dev nD) : Vec Ideal S50000x1 .i32 := V c main_v63
abbrev xblk6 (c : Dev nD) (t : Fin cfg6.N) : Vec Ideal S5000x128 .f32 := iblk6 V c 0 t
abbrev idblk6 (c : Dev nD) (t : Fin cfg6.N) : Vec Ideal S5000x1 .i32 := iblk6 V c 1 t

theorem xblk6_apply (c : Dev nD) (t : Fin cfg6.N) (r : Fin 5000) (d : Fin 128) (h : 5000 * t.val + r.val < 50000) :
    xblk6 V c t (ix2 r d) = xarr6 V c (ix2 ⟨5000 * t.val + r.val, h⟩ d) := by
  obtain ⟨e0, e1, -, -, -, -⟩ := blockIdx6 t
  show iblk6 V c 0 t (ix2 r d) = _
  unfold iblk6
  rw [View.read_apply]
  show V c main_v62 (((cfg6.win 0).blk t).view.emb (ix2 r d)) = V c main_v62 (ix2 ⟨5000 * t.val + r.val, h⟩ d)
  refine congrArg (V c main_v62) (funext fun a => Fin.ext ?_)
  match a with
  | ⟨0, _⟩ => show win6_0.index t (0 : Fin 2) * 5000 + 1 * r.val = 5000 * t.val + r.val; omega
  | ⟨1, _⟩ => show win6_0.index t (1 : Fin 2) * 128 + 1 * d.val = d.val; omega

theorem idblk6_apply (c : Dev nD) (t : Fin cfg6.N) (r : Fin 5000) (h : 5000 * t.val + r.val < 50000) :
    idblk6 V c t (ix2 r 0) = idarr6 V c (ix2 ⟨5000 * t.val + r.val, h⟩ 0) := by
  obtain ⟨-, -, e0, e1, -, -⟩ := blockIdx6 t
  show iblk6 V c 1 t (ix2 r 0) = _
  unfold iblk6
  rw [View.read_apply]
  show V c main_v63 (((cfg6.win 1).blk t).view.emb (ix2 r 0)) = V c main_v63 (ix2 ⟨5000 * t.val + r.val, h⟩ 0)
  refine congrArg (V c main_v63) (funext fun a => Fin.ext ?_)
  match a with
  | ⟨0, _⟩ => show win6_1.index t (0 : Fin 2) * 5000 + 1 * r.val = 5000 * t.val + r.val; omega
  | ⟨1, _⟩ => show win6_1.index t (1 : Fin 2) * 1 + 1 * 0 = 0; omega

def term6 (c : Dev nD) (g : Fin 512) (d : Fin 128) (n : ℕ) : EReal :=
  if h : n < 50000 then
    (if idarr6 V c (ix2 ⟨n, h⟩ 0) = BitVec.ofNat 32 g.val then (1 : EReal) else 0) * xarr6 V c (ix2 ⟨n, h⟩ d)
  else 0

theorem blockStep6 (c : Dev nD) (t : Fin cfg6.N) (a : Vec Ideal S512x128 .f32) (g : Fin 512) (d : Fin 128) :
    k6_pay2 (iblk6 V c 1 t) (iblk6 V c 0 t) a (ix2 g d)
      = a (ix2 g d) + ∑ k ∈ Finset.range 5000, term6 V c g d (5000 * t.val + k) := by
  have ht : t.val < 10 := lt_of_lt_of_eq t.isLt points6
  refine (step6_apply (idblk6 V c t) (xblk6 V c t) a g d).trans ?_
  refine congrArg (a (ix2 g d) + ·) ?_
  rw [Finset.sum_range]
  refine Finset.sum_congr rfl fun r _ => ?_
  have h : 5000 * t.val + r.val < 50000 := by have := r.isLt; omega
  unfold term6
  rw [dif_pos h, idblk6_apply V c t r h, xblk6_apply V c t r d h]

theorem acc6_apply (c : Dev nD) (g : Fin 512) (d : Fin 128) : ∀ (n : ℕ) (hn : n < cfg6.N),
    acc6 V c n hn (ix2 g d) = ∑ k ∈ Finset.range (5000 * (n + 1)), term6 V c g d k
  | 0, hn => by
    show k6_pay2 (iblk6 V c 1 ⟨0, hn⟩) (iblk6 V c 0 ⟨0, hn⟩) (k6_pay1 (F := Ideal)) (ix2 g d) = _
    rw [blockStep6 V c ⟨0, hn⟩ (k6_pay1 (F := Ideal)) g d, reset6_apply, zero_add]
    refine Finset.sum_congr rfl fun k _ => ?_
    show term6 V c g d (5000 * 0 + k) = _
    rw [Nat.mul_zero, Nat.zero_add]
  | n + 1, hn => by
    show k6_pay2 (iblk6 V c 1 ⟨n + 1, hn⟩) (iblk6 V c 0 ⟨n + 1, hn⟩) (acc6 V c n (Nat.lt_of_succ_lt hn)) (ix2 g d) = _
    rw [blockStep6 V c ⟨n + 1, hn⟩ (acc6 V c n (Nat.lt_of_succ_lt hn)) g d, acc6_apply c g d n (Nat.lt_of_succ_lt hn),
      show 5000 * (n + 1 + 1) = 5000 * (n + 1) + 5000 from by omega, Finset.sum_range_add]

theorem acc6_last (c : Dev nD) (h : 9 < cfg6.N) :
    acc6 V c 9 h = Cert.Spec.poolOut (V c main_v62) (V c main_v63) := by
  funext i
  obtain ⟨g, d, rfl⟩ : ∃ (g : Fin 512) (d : Fin 128), i = ix2 g d := ⟨i 0, i 1, eq_ix2 i⟩
  rw [acc6_apply V c g d 9 h, Finset.sum_range]
  show _ = ∑ n : Fin 50000, (if (V c main_v63 : IVec S50000x1 32) (ix2 n 0) = BitVec.ofNat 32 g.val then (1 : EReal) else 0) * (V c main_v62 : FVec Ideal S50000x128 .f32) (ix2 n d)
  refine Finset.sum_congr rfl fun n _ => ?_
  unfold term6
  rw [dif_pos n.isLt]

theorem flushed6_eq (c : Dev nD) (t : Fin cfg6.N) (hf : (cfg6.win 2).flush t = true) :
    (dat6 (F := Ideal) V c).flushed 2 t
      = ((cfg6.win 2).blk t).view.read (Elt Ideal) (Cert.Spec.poolOut (V c main_v62) (V c main_v63)) := by
  have hN : cfg6.N = 10 := points6
  have h9 : t.val = 9 := by have := (flush6_2 t).mp hf; have := t.isLt; omega
  obtain rfl : t = t6_9 := Fin.ext h9
  show (cfg6.win 2).cut (grid6.coords t6_9) ((dat6 (F := Ideal) V c).after 2 t6_9) = _
  have e : acc6 V c t6_9.val t6_9.isLt = Cert.Spec.poolOut (V c main_v62) (V c main_v63) := acc6_last V c t6_9.isLt
  rw [after6_2, e]
  have hz' : (fun a => win6_2.index t6_9 a * main_v64.ty.shape.size a) = fun _ => 0 := funext fun a => by fin_cases a <;> decide
  exact (Memref.read_access_unit_zero (Elt Ideal) main_v64 hz' (fun a => by rw [congrFun hz' a]; simp)
    (Cert.Spec.poolOut (V c main_v62) (V c main_v63))).symm

theorem arrAt6_eq (c : Dev nD) :
    (dat6 (F := Ideal) V c).arrAt 2 cfg6.N = Cert.Spec.poolOut (V c main_v62) (V c main_v63) :=
  (dat6 (F := Ideal) V c).arrAt_eq_of_cover 2 (Cert.Spec.poolOut (V c main_v62) (V c main_v63)) (flushed6_eq V c) fun i =>
    ⟨t6_9, (flush6_2 t6_9).mpr rfl, by
      show i ∈ ((View.whole main_v64).slice (win6_2.rect t6_9)).set
      rw [View.set_slice_whole, Rect.mem_set_unit]
      intro a
      have h0 : (i 0 : Nat) < 512 := (i 0).isLt
      have h1 : (i 1 : Nat) < 128 := (i 1).isLt
      match a with
      | ⟨0, _⟩ =>
        show win6_2.index t6_9 0 * win6_2.size 0 ≤ (i 0 : Nat) ∧ (i 0 : Nat) < win6_2.index t6_9 0 * win6_2.size 0 + win6_2.xsize (grid6.coords t6_9) 0
        rw [show win6_2.index t6_9 0 * win6_2.size 0 = 0 from by decide +kernel, show win6_2.xsize (grid6.coords t6_9) 0 = 512 from by decide +kernel]; omega
      | ⟨1, _⟩ =>
        show win6_2.index t6_9 1 * win6_2.size 1 ≤ (i 1 : Nat) ∧ (i 1 : Nat) < win6_2.index t6_9 1 * win6_2.size 1 + win6_2.xsize (grid6.coords t6_9) 1
        rw [show win6_2.index t6_9 1 * win6_2.size 1 = 0 from by decide +kernel, show win6_2.xsize (grid6.coords t6_9) 1 = 128 from by decide +kernel]; omega⟩

end Cert.KernelIdeal.Hand.V6

end
-- ==== Proof.Spec2.lean ====
import proofs.«414499_j137438954180_2_alg».proof.Proof.Spec

noncomputable section

namespace Cert.Spec

open Idealize.ShloMosaic Idealize.ShloMosaic.ValueIdx

section K
open Cert.KernelIdeal Cert.KernelIdeal.Facts₀

def rowK (e : IVec S2x800000 32) : IVec S850000 32 :=
  concatenate S850000 0 [⟨S800000, shapeCast _ (extractStridedSlice S1x800000 ![0, 0] e slices_S2x800000_S1x800000_0_0) shapeCasts_S1x800000_S800000⟩,
    ⟨S50000, iotaInDim S50000 32 0⟩] concatenates_S800000_S50000_S850000_d0
def colK (e : IVec S2x800000 32) : IVec S850000 32 :=
  concatenate S850000 0 [⟨S800000, shapeCast _ (extractStridedSlice S1x800000 ![1, 0] e slices_S2x800000_S1x800000_1_0) shapeCasts_S1x800000_S800000⟩,
    ⟨S50000, iotaInDim S50000 32 0⟩] concatenates_S800000_S50000_S850000_d0

def x1K (a : FVec Ideal S50000x128 .f32) (e : IVec S2x800000 32) (w0 : FVec Ideal S128x128 .f32) (b0 : FVec Ideal S128 .f32) : FVec Ideal S50000x128 .f32 :=
  layerK (dinvK (colK e)) (rowK e) (colK e) a w0 b0
def x2K (a : FVec Ideal S50000x128 .f32) (e : IVec S2x800000 32) (w0 : FVec Ideal S128x128 .f32) (b0 : FVec Ideal S128 .f32)
    (w1 : FVec Ideal S128x128 .f32) (b1 : FVec Ideal S128 .f32) : FVec Ideal S50000x128 .f32 :=
  layerK (dinvK (colK e)) (rowK e) (colK e) (x1K a e w0 b0) w1 b1
def x3K (a : FVec Ideal S50000x128 .f32) (e : IVec S2x800000 32) (w0 : FVec Ideal S128x128 .f32) (b0 : FVec Ideal S128 .f32)
    (w1 : FVec Ideal S128x128 .f32) (b1 : FVec Ideal S128 .f32) (w2 : FVec Ideal S128x128 .f32) (b2 : FVec Ideal S128 .f32) : FVec Ideal S50000x128 .f32 :=
  layerK (dinvK (colK e)) (rowK e) (colK e) (x2K a e w0 b0 w1 b1) w2 b2

end K

section R
open Cert.ReferenceIdeal Cert.ReferenceIdeal.Facts₀

def rowR (e : IVec S2x800000 32) : IVec S850000 32 :=
  concatenate S850000 0 [⟨S800000, shapeCast _ (extractStridedSlice S1x800000 ![0, 0] e slices_S2x800000_S1x800000_0_0) shapeCasts_S1x800000_S800000⟩,
    ⟨S50000, iotaInDim S50000 32 0⟩] concatenates_S800000_S50000_S850000_d0
def colR (e : IVec S2x800000 32) : IVec S850000 32 :=
  concatenate S850000 0 [⟨S800000, shapeCast _ (extractStridedSlice S1x800000 ![1, 0] e slices_S2x800000_S1x800000_1_0) shapeCasts_S1x800000_S800000⟩,
    ⟨S50000, iotaInDim S50000 32 0⟩] concatenates_S800000_S50000_S850000_d0

def degR (col : IVec S850000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 col)
    (broadcastInDim S850000 ![] bcast_S_S850000 (constant S_ .f32 0x3F800000#32))
def dinvR (col : IVec S850000 32) : FVec Ideal S50000 .f32 :=
  select (cmpf .ogt (degR col) (broadcastInDim S50000 ![] bcast_S_S50000 (constant S_ .f32 0x00000000#32)))
    (Host.rsqrt (degR col))
    (broadcastInDim S50000 ![] bcast_S_S50000 (id (constant S_ .f32 0x00000000#32)))

def x1R (a : FVec Ideal S50000x128 .f32) (e : IVec S2x800000 32) (w0 : FVec Ideal S128x128 .f32) (b0 : FVec Ideal S128 .f32) : FVec Ideal S50000x128 .f32 :=
  layerR (dinvR (colR e)) (rowR e) (colR e) a w0 b0
def x2R (a : FVec Ideal S50000x128 .f32) (e : IVec S2x800000 32) (w0 : FVec Ideal S128x128 .f32) (b0 : FVec Ideal S128 .f32)
    (w1 : FVec Ideal S128x128 .f32) (b1 : FVec Ideal S128 .f32) : FVec Ideal S50000x128 .f32 :=
  layerR (dinvR (colR e)) (rowR e) (colR e) (x1R a e w0 b0) w1 b1
def x3R (a : FVec Ideal S50000x128 .f32) (e : IVec S2x800000 32) (w0 : FVec Ideal S128x128 .f32) (b0 : FVec Ideal S128 .f32)
    (w1 : FVec Ideal S128x128 .f32) (b1 : FVec Ideal S128 .f32) (w2 : FVec Ideal S128x128 .f32) (b2 : FVec Ideal S128 .f32) : FVec Ideal S50000x128 .f32 :=
  layerR (dinvR (colR e)) (rowR e) (colR e) (x2R a e w0 b0 w1 b1) w2 b2

def cntR (bt : IVec S50000 32) : FVec Ideal S512x128 .f32 :=
  broadcastInDim S512x128 ![0, 1] bcast_S512x1_S512x128_0_1
    (maximumf
      (Host.scatterAdd scatter_S512x1_S50000x1_S50000x1_1_0_0_1
        (broadcastInDim S512x1 ![] bcast_S_S512x1 (constant S_ .f32 0x00000000#32))
        (broadcastInDim S50000x1 ![0] bcast_S50000_S50000x1_0 bt)
        (broadcastInDim S50000x1 ![] bcast_S_S50000x1 (constant S_ .f32 0x3F800000#32)))
      (broadcastInDim S512x1 ![] bcast_S_S512x1 (constant S_ .f32 0x3F800000#32)))
def meanR (x : FVec Ideal S50000x128 .f32) (bt : IVec S50000 32) : FVec Ideal S512x128 .f32 :=
  Host.divf (poolR x bt) (cntR bt)

end R

end Cert.Spec

end
-- ==== Proof.KI.Results.lean ====
import proofs.«414499_j137438954180_2_alg».proof.Proof.KI.Fold
import proofs.«414499_j137438954180_2_alg».proof.Proof.KI.Val0
import proofs.«414499_j137438954180_2_alg».proof.Proof.KI.Val1
import proofs.«414499_j137438954180_2_alg».proof.Proof.KI.Val2
import proofs.«414499_j137438954180_2_alg».proof.Proof.KI.Val3
import proofs.«414499_j137438954180_2_alg».proof.Proof.KI.Val4
import proofs.«414499_j137438954180_2_alg».proof.Proof.KI.Val5
import proofs.«414499_j137438954180_2_alg».proof.Proof.KI.Val6
import proofs.«414499_j137438954180_2_alg».proof.Proof.Spec2
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

abbrev xA (c : Dev nD) : FVec Ideal S50000x128 .f32 := m ((c.tc : Thread nD τ).loc main_arg0)
abbrev eA (c : Dev nD) : IVec S2x800000 32 := m ((c.tc : Thread nD τ).loc main_arg1)
abbrev btA (c : Dev nD) : IVec S50000 32 := m ((c.tc : Thread nD τ).loc main_arg2)
abbrev w0A (c : Dev nD) : FVec Ideal S128x128 .f32 := m ((c.tc : Thread nD τ).loc main_arg3)
abbrev b0A (c : Dev nD) : FVec Ideal S128 .f32 := m ((c.tc : Thread nD τ).loc main_arg4)
abbrev w1A (c : Dev nD) : FVec Ideal S128x128 .f32 := m ((c.tc : Thread nD τ).loc main_arg5)
abbrev b1A (c : Dev nD) : FVec Ideal S128 .f32 := m ((c.tc : Thread nD τ).loc main_arg6)
abbrev w2A (c : Dev nD) : FVec Ideal S128x128 .f32 := m ((c.tc : Thread nD τ).loc main_arg7)
abbrev b2A (c : Dev nD) : FVec Ideal S128 .f32 := m ((c.tc : Thread nD τ).loc main_arg8)
abbrev rowA (c : Dev nD) : IVec S850000 32 := Cert.Spec.rowK (eA m c)
abbrev colA (c : Dev nD) : IVec S850000 32 := Cert.Spec.colK (eA m c)
abbrev dinvA (c : Dev nD) : FVec Ideal S50000 .f32 := Cert.Spec.dinvK (colA m c)
abbrev dvA (c : Dev nD) : FVec Ideal S50000x1 .f32 := shapeCast _ (dinvA m c) Facts₀.shapeCasts_S50000_S50000x1
abbrev x1A (c : Dev nD) : FVec Ideal S50000x128 .f32 := Cert.Spec.x1K (xA m c) (eA m c) (w0A m c) (b0A m c)
abbrev x2A (c : Dev nD) : FVec Ideal S50000x128 .f32 := Cert.Spec.x2K (xA m c) (eA m c) (w0A m c) (b0A m c) (w1A m c) (b1A m c)
abbrev x3A (c : Dev nD) : FVec Ideal S50000x128 .f32 :=
  Cert.Spec.x3K (xA m c) (eA m c) (w0A m c) (b0A m c) (w1A m c) (b1A m c) (w2A m c) (b2A m c)

theorem V1_row (c : Dev nD) : Gen.V1 m c main_v3 = rowA m c := by
  show StableHlo.after hostOps0 (Gen.V0 m c) (Proc.devRef .tc main_v3) = _
  after_results
  rfl
theorem V1_col (c : Dev nD) : Gen.V1 m c main_v6 = colA m c := by
  show StableHlo.after hostOps0 (Gen.V0 m c) (Proc.devRef .tc main_v6) = _
  after_results
  rfl

theorem V1_gt (c : Dev nD) : Gen.V1 m c main_v12 = (cmpf .ogt (Cert.Spec.degK (colA m c)) (broadcastInDim S50000 ![] Facts₀.bcast_S_S50000 (constant (F := Ideal) S_ .f32 0x00000000#32)) : (⟨S50000, .i1⟩ : BufTy).Contents (Elt Ideal)) := by
  show StableHlo.after hostOps0 (Gen.V0 m c) (Proc.devRef .tc main_v12) = _
  after_results
  rfl
theorem V1_rsq (c : Dev nD) : Gen.V1 m c main_v13 = (Host.rsqrt (F := Ideal) (Cert.Spec.degK (colA m c)) : (⟨S50000, .f32⟩ : BufTy).Contents (Elt Ideal)) := by
  show StableHlo.after hostOps0 (Gen.V0 m c) (Proc.devRef .tc main_v13) = _
  after_results
  rfl
theorem V1_zero (c : Dev nD) : Gen.V1 m c main_cst_2 = (constant (F := Ideal) S_ .f32 0x00000000#32 : (⟨S_, .f32⟩ : BufTy).Contents (Elt Ideal)) := by
  show StableHlo.after hostOps0 (Gen.V0 m c) (Proc.devRef .tc main_cst_2) = _
  after_results
theorem V2_dinv (c : Dev nD) : Gen.V2 m c main_v14 = dinvA m c := by
  show StableHlo.after hostOps0_1 (Gen.V1 m c) (Proc.devRef .tc main_v14) = _
  generalize hW : Gen.V1 m c = W
  after_results
  subst hW
  (try simp only [TRef.ofBuf, TRef.toBuf, cast_eq])
  rw [V1_gt, V1_rsq, V1_zero]
  rfl

theorem U3_of (c : Dev nD) (r : Ref sig .tc) (h0 : r ∉ hostOps0_W) (h1 : r ∉ hostOps0_1_W) (h2 : r ∉ hostOps0_2_W) :
    U3 m c r = m ((c.tc : Thread nD τ).loc r) :=
  (Gen.V3_of m c r h2).trans ((Gen.V2_of m c r h1).trans ((Gen.V1_of m c r h0).trans rfl))
theorem U4_of (c : Dev nD) (r : Ref sig .tc) (h : r ≠ main_v16) : U4 m c r = U3 m c r :=
  Function.update_of_ne (StableHlo.devRef_ne_of_ne h) _ _
theorem U5_of (c : Dev nD) (r : Ref sig .tc) (h : r ∉ hostOps1_W) : U5 m c r = U4 m c r :=
  StableHlo.after_of_writes_sub hostOps1 _ hostOps1_writes h
theorem U6_of (c : Dev nD) (r : Ref sig .tc) (h : r ≠ main_v30) : U6 m c r = U5 m c r :=
  Function.update_of_ne (StableHlo.devRef_ne_of_ne h) _ _
theorem U7_of (c : Dev nD) (r : Ref sig .tc) (h : r ∉ hostOps2_W) : U7 m c r = U6 m c r :=
  StableHlo.after_of_writes_sub hostOps2 _ hostOps2_writes h
theorem U8_of (c : Dev nD) (r : Ref sig .tc) (h : r ≠ main_v32) : U8 m c r = U7 m c r :=
  Function.update_of_ne (StableHlo.devRef_ne_of_ne h) _ _
theorem U9_of (c : Dev nD) (r : Ref sig .tc) (h : r ∉ hostOps3_W) : U9 m c r = U8 m c r :=
  StableHlo.after_of_writes_sub hostOps3 _ hostOps3_writes h
theorem U10_of (c : Dev nD) (r : Ref sig .tc) (h : r ≠ main_v46) : U10 m c r = U9 m c r :=
  Function.update_of_ne (StableHlo.devRef_ne_of_ne h) _ _
theorem U11_of (c : Dev nD) (r : Ref sig .tc) (h : r ∉ hostOps4_W) : U11 m c r = U10 m c r :=
  StableHlo.after_of_writes_sub hostOps4 _ hostOps4_writes h
theorem U12_of (c : Dev nD) (r : Ref sig .tc) (h : r ≠ main_v48) : U12 m c r = U11 m c r :=
  Function.update_of_ne (StableHlo.devRef_ne_of_ne h) _ _
theorem U13_of (c : Dev nD) (r : Ref sig .tc) (h : r ∉ hostOps5_W) : U13 m c r = U12 m c r :=
  StableHlo.after_of_writes_sub hostOps5 _ hostOps5_writes h
theorem U14_of (c : Dev nD) (r : Ref sig .tc) (h : r ≠ main_v62) : U14 m c r = U13 m c r :=
  Function.update_of_ne (StableHlo.devRef_ne_of_ne h) _ _
theorem U15_of (c : Dev nD) (r : Ref sig .tc) (h : r ∉ hostOps6_W) : U15 m c r = U14 m c r :=
  StableHlo.after_of_writes_sub hostOps6 _ hostOps6_writes h
theorem U16_of (c : Dev nD) (r : Ref sig .tc) (h : r ≠ main_v64) : U16 m c r = U15 m c r :=
  Function.update_of_ne (StableHlo.devRef_ne_of_ne h) _ _
theorem U17_of (c : Dev nD) (r : Ref sig .tc) (h : r ∉ hostOps7_W) : U17 m c r = U16 m c r :=
  StableHlo.after_of_writes_sub hostOps7 _ hostOps7_writes h

theorem U3_row (c : Dev nD) : U3 m c main_v3 = rowA m c :=
  (Gen.V3_of m c main_v3 (by decide)).trans ((Gen.V2_of m c main_v3 (by decide)).trans (V1_row m c))
theorem U3_col (c : Dev nD) : U3 m c main_v6 = colA m c :=
  (Gen.V3_of m c main_v6 (by decide)).trans ((Gen.V2_of m c main_v6 (by decide)).trans (V1_col m c))
theorem U3_dinv (c : Dev nD) : U3 m c main_v14 = dinvA m c :=
  (Gen.V3_of m c main_v14 (by decide)).trans (V2_dinv m c)
theorem U3_dv (c : Dev nD) : U3 m c main_v15 = dvA m c := by
  show StableHlo.after hostOps0_2 (Gen.V2 m c) (Proc.devRef .tc main_v15) = _
  generalize hW : Gen.V2 m c = W
  after_results
  subst hW
  rw [V2_dinv]
  rfl
theorem U3_arg0 (c : Dev nD) : U3 m c main_arg0 = xA m c :=
  U3_of m c main_arg0 (by decide) (by decide) (by decide)
theorem U3_arg2 (c : Dev nD) : U3 m c main_arg2 = btA m c :=
  U3_of m c main_arg2 (by decide) (by decide) (by decide)
theorem U3_arg3 (c : Dev nD) : U3 m c main_arg3 = w0A m c :=
  U3_of m c main_arg3 (by decide) (by decide) (by decide)
theorem U3_arg4 (c : Dev nD) : U3 m c main_arg4 = b0A m c :=
  U3_of m c main_arg4 (by decide) (by decide) (by decide)
theorem U3_arg5 (c : Dev nD) : U3 m c main_arg5 = w1A m c :=
  U3_of m c main_arg5 (by decide) (by decide) (by decide)
theorem U3_arg6 (c : Dev nD) : U3 m c main_arg6 = b1A m c :=
  U3_of m c main_arg6 (by decide) (by decide) (by decide)
theorem U3_arg7 (c : Dev nD) : U3 m c main_arg7 = w2A m c :=
  U3_of m c main_arg7 (by decide) (by decide) (by decide)
theorem U3_arg8 (c : Dev nD) : U3 m c main_arg8 = b2A m c :=
  U3_of m c main_arg8 (by decide) (by decide) (by decide)

theorem U4_h (c : Dev nD) : U4 m c main_v16 = Cert.Spec.msOut (xA m c) (w0A m c) (dvA m c) := by
  show Function.update (U3 m c) (Proc.devRef .tc main_v16) (X4 m c) (Proc.devRef .tc main_v16) = _
  rw [Function.update_self]
  show (dat0 (F := Ideal) (atTc (U3 m)) c).arrAt 3 cfg0.N = _
  rw [V0.arrAt0_eq]
  show Cert.Spec.msOut (U3 m c main_arg0) (U3 m c main_arg3) (U3 m c main_v15) = _
  rw [U3_arg0, U3_arg3, U3_dv]
theorem U4_row (c : Dev nD) : U4 m c main_v3 = rowA m c :=
  (U4_of m c main_v3 (by decide)).trans (U3_row m c)
theorem U4_col (c : Dev nD) : U4 m c main_v6 = colA m c :=
  (U4_of m c main_v6 (by decide)).trans (U3_col m c)
theorem U4_dinv (c : Dev nD) : U4 m c main_v14 = dinvA m c :=
  (U4_of m c main_v14 (by decide)).trans (U3_dinv m c)
theorem U4_arg2 (c : Dev nD) : U4 m c main_arg2 = btA m c :=
  (U4_of m c main_arg2 (by decide)).trans (U3_arg2 m c)
theorem U4_arg4 (c : Dev nD) : U4 m c main_arg4 = b0A m c :=
  (U4_of m c main_arg4 (by decide)).trans (U3_arg4 m c)
theorem U4_arg5 (c : Dev nD) : U4 m c main_arg5 = w1A m c :=
  (U4_of m c main_arg5 (by decide)).trans (U3_arg5 m c)
theorem U4_arg6 (c : Dev nD) : U4 m c main_arg6 = b1A m c :=
  (U4_of m c main_arg6 (by decide)).trans (U3_arg6 m c)
theorem U4_arg7 (c : Dev nD) : U4 m c main_arg7 = w2A m c :=
  (U4_of m c main_arg7 (by decide)).trans (U3_arg7 m c)
theorem U4_arg8 (c : Dev nD) : U4 m c main_arg8 = b2A m c :=
  (U4_of m c main_arg8 (by decide)).trans (U3_arg8 m c)

theorem U5_agg (c : Dev nD) : U5 m c main_v27 = Cert.Spec.aggK (rowA m c) (colA m c) (Cert.Spec.msOut (xA m c) (w0A m c) (dvA m c)) := by
  show StableHlo.after hostOps1 (U4 m c) (Proc.devRef .tc main_v27) = _
  generalize hW : U4 m c = W
  after_results
  subst hW
  rw [U4_row, U4_col, U4_h]
  rfl
theorem U5_dv (c : Dev nD) : U5 m c main_v28 = dvA m c := by
  show StableHlo.after hostOps1 (U4 m c) (Proc.devRef .tc main_v28) = _
  generalize hW : U4 m c = W
  after_results
  subst hW
  rw [U4_dinv]
  rfl
theorem U5_b (c : Dev nD) : U5 m c main_v29 = shapeCast _ (b0A m c) Facts₀.shapeCasts_S128_S1x128 := by
  show StableHlo.after hostOps1 (U4 m c) (Proc.devRef .tc main_v29) = _
  generalize hW : U4 m c = W
  after_results
  subst hW
  rw [U4_arg4]
  rfl
theorem U5_row (c : Dev nD) : U5 m c main_v3 = rowA m c :=
  (U5_of m c main_v3 (by decide)).trans (U4_row m c)
theorem U5_col (c : Dev nD) : U5 m c main_v6 = colA m c :=
  (U5_of m c main_v6 (by decide)).trans (U4_col m c)
theorem U5_dinv (c : Dev nD) : U5 m c main_v14 = dinvA m c :=
  (U5_of m c main_v14 (by decide)).trans (U4_dinv m c)
theorem U5_arg2 (c : Dev nD) : U5 m c main_arg2 = btA m c :=
  (U5_of m c main_arg2 (by decide)).trans (U4_arg2 m c)
theorem U5_arg5 (c : Dev nD) : U5 m c main_arg5 = w1A m c :=
  (U5_of m c main_arg5 (by decide)).trans (U4_arg5 m c)
theorem U5_arg6 (c : Dev nD) : U5 m c main_arg6 = b1A m c :=
  (U5_of m c main_arg6 (by decide)).trans (U4_arg6 m c)
theorem U5_arg7 (c : Dev nD) : U5 m c main_arg7 = w2A m c :=
  (U5_of m c main_arg7 (by decide)).trans (U4_arg7 m c)
theorem U5_arg8 (c : Dev nD) : U5 m c main_arg8 = b2A m c :=
  (U5_of m c main_arg8 (by decide)).trans (U4_arg8 m c)

theorem U6_x1 (c : Dev nD) : U6 m c main_v30 = x1A m c := by
  show Function.update (U5 m c) (Proc.devRef .tc main_v30) (X6 m c) (Proc.devRef .tc main_v30) = _
  rw [Function.update_self]
  show (dat1 (F := Ideal) (atTc (U5 m)) c).arrAt 3 cfg1.N = _
  rw [V1.arrAt1_eq]
  show Cert.Spec.btOut (U5 m c main_v27) (U5 m c main_v28) (U5 m c main_v29) = _
  rw [U5_agg, U5_dv, U5_b]
  rfl
theorem U6_row (c : Dev nD) : U6 m c main_v3 = rowA m c :=
  (U6_of m c main_v3 (by decide)).trans (U5_row m c)
theorem U6_col (c : Dev nD) : U6 m c main_v6 = colA m c :=
  (U6_of m c main_v6 (by decide)).trans (U5_col m c)
theorem U6_dinv (c : Dev nD) : U6 m c main_v14 = dinvA m c :=
  (U6_of m c main_v14 (by decide)).trans (U5_dinv m c)
theorem U6_arg2 (c : Dev nD) : U6 m c main_arg2 = btA m c :=
  (U6_of m c main_arg2 (by decide)).trans (U5_arg2 m c)
theorem U6_arg5 (c : Dev nD) : U6 m c main_arg5 = w1A m c :=
  (U6_of m c main_arg5 (by decide)).trans (U5_arg5 m c)
theorem U6_arg6 (c : Dev nD) : U6 m c main_arg6 = b1A m c :=
  (U6_of m c main_arg6 (by decide)).trans (U5_arg6 m c)
theorem U6_arg7 (c : Dev nD) : U6 m c main_arg7 = w2A m c :=
  (U6_of m c main_arg7 (by decide)).trans (U5_arg7 m c)
theorem U6_arg8 (c : Dev nD) : U6 m c main_arg8 = b2A m c :=
  (U6_of m c main_arg8 (by decide)).trans (U5_arg8 m c)

theorem U7_dv (c : Dev nD) : U7 m c main_v31 = dvA m c := by
  show StableHlo.after hostOps2 (U6 m c) (Proc.devRef .tc main_v31) = _
  generalize hW : U6 m c = W
  after_results
  subst hW
  rw [U6_dinv]
  rfl
theorem U7_row (c : Dev nD) : U7 m c main_v3 = rowA m c :=
  (U7_of m c main_v3 (by decide)).trans (U6_row m c)
theorem U7_col (c : Dev nD) : U7 m c main_v6 = colA m c :=
  (U7_of m c main_v6 (by decide)).trans (U6_col m c)
theorem U7_dinv (c : Dev nD) : U7 m c main_v14 = dinvA m c :=
  (U7_of m c main_v14 (by decide)).trans (U6_dinv m c)
theorem U7_x1 (c : Dev nD) : U7 m c main_v30 = x1A m c :=
  (U7_of m c main_v30 (by decide)).trans (U6_x1 m c)
theorem U7_arg2 (c : Dev nD) : U7 m c main_arg2 = btA m c :=
  (U7_of m c main_arg2 (by decide)).trans (U6_arg2 m c)
theorem U7_arg5 (c : Dev nD) : U7 m c main_arg5 = w1A m c :=
  (U7_of m c main_arg5 (by decide)).trans (U6_arg5 m c)
theorem U7_arg6 (c : Dev nD) : U7 m c main_arg6 = b1A m c :=
  (U7_of m c main_arg6 (by decide)).trans (U6_arg6 m c)
theorem U7_arg7 (c : Dev nD) : U7 m c main_arg7 = w2A m c :=
  (U7_of m c main_arg7 (by decide)).trans (U6_arg7 m c)
theorem U7_arg8 (c : Dev nD) : U7 m c main_arg8 = b2A m c :=
  (U7_of m c main_arg8 (by decide)).trans (U6_arg8 m c)

theorem U8_h (c : Dev nD) : U8 m c main_v32 = Cert.Spec.msOut (x1A m c) (w1A m c) (dvA m c) := by
  show Function.update (U7 m c) (Proc.devRef .tc main_v32) (X8 m c) (Proc.devRef .tc main_v32) = _
  rw [Function.update_self]
  show (dat2 (F := Ideal) (atTc (U7 m)) c).arrAt 3 cfg2.N = _
  rw [V2.arrAt2_eq]
  show Cert.Spec.msOut (U7 m c main_v30) (U7 m c main_arg5) (U7 m c main_v31) = _
  rw [U7_x1, U7_arg5, U7_dv]
theorem U8_row (c : Dev nD) : U8 m c main_v3 = rowA m c :=
  (U8_of m c main_v3 (by decide)).trans (U7_row m c)
theorem U8_col (c : Dev nD) : U8 m c main_v6 = colA m c :=
  (U8_of m c main_v6 (by decide)).trans (U7_col m c)
theorem U8_dinv (c : Dev nD) : U8 m c main_v14 = dinvA m c :=
  (U8_of m c main_v14 (by decide)).trans (U7_dinv m c)
theorem U8_x1 (c : Dev nD) : U8 m c main_v30 = x1A m c :=
  (U8_of m c main_v30 (by decide)).trans (U7_x1 m c)
theorem U8_arg2 (c : Dev nD) : U8 m c main_arg2 = btA m c :=
  (U8_of m c main_arg2 (by decide)).trans (U7_arg2 m c)
theorem U8_arg6 (c : Dev nD) : U8 m c main_arg6 = b1A m c :=
  (U8_of m c main_arg6 (by decide)).trans (U7_arg6 m c)
theorem U8_arg7 (c : Dev nD) : U8 m c main_arg7 = w2A m c :=
  (U8_of m c main_arg7 (by decide)).trans (U7_arg7 m c)
theorem U8_arg8 (c : Dev nD) : U8 m c main_arg8 = b2A m c :=
  (U8_of m c main_arg8 (by decide)).trans (U7_arg8 m c)

theorem U9_agg (c : Dev nD) : U9 m c main_v43 = Cert.Spec.aggK (rowA m c) (colA m c) (Cert.Spec.msOut (x1A m c) (w1A m c) (dvA m c)) := by
  show StableHlo.after hostOps3 (U8 m c) (Proc.devRef .tc main_v43) = _
  generalize hW : U8 m c = W
  after_results
  subst hW
  rw [U8_row, U8_col, U8_h]
  rfl
theorem U9_dv (c : Dev nD) : U9 m c main_v44 = dvA m c := by
  show StableHlo.after hostOps3 (U8 m c) (Proc.devRef .tc main_v44) = _
  generalize hW : U8 m c = W
  after_results
  subst hW
  rw [U8_dinv]
  rfl
theorem U9_b (c : Dev nD) : U9 m c main_v45 = shapeCast _ (b1A m c) Facts₀.shapeCasts_S128_S1x128 := by
  show StableHlo.after hostOps3 (U8 m c) (Proc.devRef .tc main_v45) = _
  generalize hW : U8 m c = W
  after_results
  subst hW
  rw [U8_arg6]
  rfl
theorem U9_row (c : Dev nD) : U9 m c main_v3 = rowA m c :=
  (U9_of m c main_v3 (by decide)).trans (U8_row m c)
theorem U9_col (c : Dev nD) : U9 m c main_v6 = colA m c :=
  (U9_of m c main_v6 (by decide)).trans (U8_col m c)
theorem U9_dinv (c : Dev nD) : U9 m c main_v14 = dinvA m c :=
  (U9_of m c main_v14 (by decide)).trans (U8_dinv m c)
theorem U9_x1 (c : Dev nD) : U9 m c main_v30 = x1A m c :=
  (U9_of m c main_v30 (by decide)).trans (U8_x1 m c)
theorem U9_arg2 (c : Dev nD) : U9 m c main_arg2 = btA m c :=
  (U9_of m c main_arg2 (by decide)).trans (U8_arg2 m c)
theorem U9_arg7 (c : Dev nD) : U9 m c main_arg7 = w2A m c :=
  (U9_of m c main_arg7 (by decide)).trans (U8_arg7 m c)
theorem U9_arg8 (c : Dev nD) : U9 m c main_arg8 = b2A m c :=
  (U9_of m c main_arg8 (by decide)).trans (U8_arg8 m c)

theorem U10_x2 (c : Dev nD) : U10 m c main_v46 = x2A m c := by
  show Function.update (U9 m c) (Proc.devRef .tc main_v46) (X10 m c) (Proc.devRef .tc main_v46) = _
  rw [Function.update_self]
  show (dat3 (F := Ideal) (atTc (U9 m)) c).arrAt 3 cfg3.N = _
  rw [V3.arrAt3_eq]
  show Cert.Spec.btOut (U9 m c main_v43) (U9 m c main_v44) (U9 m c main_v45) = _
  rw [U9_agg, U9_dv, U9_b]
  rfl
theorem U10_row (c : Dev nD) : U10 m c main_v3 = rowA m c :=
  (U10_of m c main_v3 (by decide)).trans (U9_row m c)
theorem U10_col (c : Dev nD) : U10 m c main_v6 = colA m c :=
  (U10_of m c main_v6 (by decide)).trans (U9_col m c)
theorem U10_dinv (c : Dev nD) : U10 m c main_v14 = dinvA m c :=
  (U10_of m c main_v14 (by decide)).trans (U9_dinv m c)
theorem U10_x1 (c : Dev nD) : U10 m c main_v30 = x1A m c :=
  (U10_of m c main_v30 (by decide)).trans (U9_x1 m c)
theorem U10_arg2 (c : Dev nD) : U10 m c main_arg2 = btA m c :=
  (U10_of m c main_arg2 (by decide)).trans (U9_arg2 m c)
theorem U10_arg7 (c : Dev nD) : U10 m c main_arg7 = w2A m c :=
  (U10_of m c main_arg7 (by decide)).trans (U9_arg7 m c)
theorem U10_arg8 (c : Dev nD) : U10 m c main_arg8 = b2A m c :=
  (U10_of m c main_arg8 (by decide)).trans (U9_arg8 m c)

theorem U11_dv (c : Dev nD) : U11 m c main_v47 = dvA m c := by
  show StableHlo.after hostOps4 (U10 m c) (Proc.devRef .tc main_v47) = _
  generalize hW : U10 m c = W
  after_results
  subst hW
  rw [U10_dinv]
  rfl
theorem U11_row (c : Dev nD) : U11 m c main_v3 = rowA m c :=
  (U11_of m c main_v3 (by decide)).trans (U10_row m c)
theorem U11_col (c : Dev nD) : U11 m c main_v6 = colA m c :=
  (U11_of m c main_v6 (by decide)).trans (U10_col m c)
theorem U11_dinv (c : Dev nD) : U11 m c main_v14 = dinvA m c :=
  (U11_of m c main_v14 (by decide)).trans (U10_dinv m c)
theorem U11_x1 (c : Dev nD) : U11 m c main_v30 = x1A m c :=
  (U11_of m c main_v30 (by decide)).trans (U10_x1 m c)
theorem U11_x2 (c : Dev nD) : U11 m c main_v46 = x2A m c :=
  (U11_of m c main_v46 (by decide)).trans (U10_x2 m c)
theorem U11_arg2 (c : Dev nD) : U11 m c main_arg2 = btA m c :=
  (U11_of m c main_arg2 (by decide)).trans (U10_arg2 m c)
theorem U11_arg7 (c : Dev nD) : U11 m c main_arg7 = w2A m c :=
  (U11_of m c main_arg7 (by decide)).trans (U10_arg7 m c)
theorem U11_arg8 (c : Dev nD) : U11 m c main_arg8 = b2A m c :=
  (U11_of m c main_arg8 (by decide)).trans (U10_arg8 m c)

theorem U12_h (c : Dev nD) : U12 m c main_v48 = Cert.Spec.msOut (x2A m c) (w2A m c) (dvA m c) := by
  show Function.update (U11 m c) (Proc.devRef .tc main_v48) (X12 m c) (Proc.devRef .tc main_v48) = _
  rw [Function.update_self]
  show (dat4 (F := Ideal) (atTc (U11 m)) c).arrAt 3 cfg4.N = _
  rw [V4.arrAt4_eq]
  show Cert.Spec.msOut (U11 m c main_v46) (U11 m c main_arg7) (U11 m c main_v47) = _
  rw [U11_x2, U11_arg7, U11_dv]
theorem U12_row (c : Dev nD) : U12 m c main_v3 = rowA m c :=
  (U12_of m c main_v3 (by decide)).trans (U11_row m c)
theorem U12_col (c : Dev nD) : U12 m c main_v6 = colA m c :=
  (U12_of m c main_v6 (by decide)).trans (U11_col m c)
theorem U12_dinv (c : Dev nD) : U12 m c main_v14 = dinvA m c :=
  (U12_of m c main_v14 (by decide)).trans (U11_dinv m c)
theorem U12_x1 (c : Dev nD) : U12 m c main_v30 = x1A m c :=
  (U12_of m c main_v30 (by decide)).trans (U11_x1 m c)
theorem U12_x2 (c : Dev nD) : U12 m c main_v46 = x2A m c :=
  (U12_of m c main_v46 (by decide)).trans (U11_x2 m c)
theorem U12_arg2 (c : Dev nD) : U12 m c main_arg2 = btA m c :=
  (U12_of m c main_arg2 (by decide)).trans (U11_arg2 m c)
theorem U12_arg8 (c : Dev nD) : U12 m c main_arg8 = b2A m c :=
  (U12_of m c main_arg8 (by decide)).trans (U11_arg8 m c)

theorem U13_agg (c : Dev nD) : U13 m c main_v59 = Cert.Spec.aggK (rowA m c) (colA m c) (Cert.Spec.msOut (x2A m c) (w2A m c) (dvA m c)) := by
  show StableHlo.after hostOps5 (U12 m c) (Proc.devRef .tc main_v59) = _
  generalize hW : U12 m c = W
  after_results
  subst hW
  rw [U12_row, U12_col, U12_h]
  rfl
theorem U13_dv (c : Dev nD) : U13 m c main_v60 = dvA m c := by
  show StableHlo.after hostOps5 (U12 m c) (Proc.devRef .tc main_v60) = _
  generalize hW : U12 m c = W
  after_results
  subst hW
  rw [U12_dinv]
  rfl
theorem U13_b (c : Dev nD) : U13 m c main_v61 = shapeCast _ (b2A m c) Facts₀.shapeCasts_S128_S1x128 := by
  show StableHlo.after hostOps5 (U12 m c) (Proc.devRef .tc main_v61) = _
  generalize hW : U12 m c = W
  after_results
  subst hW
  rw [U12_arg8]
  rfl
theorem U13_x1 (c : Dev nD) : U13 m c main_v30 = x1A m c :=
  (U13_of m c main_v30 (by decide)).trans (U12_x1 m c)
theorem U13_x2 (c : Dev nD) : U13 m c main_v46 = x2A m c :=
  (U13_of m c main_v46 (by decide)).trans (U12_x2 m c)
theorem U13_arg2 (c : Dev nD) : U13 m c main_arg2 = btA m c :=
  (U13_of m c main_arg2 (by decide)).trans (U12_arg2 m c)

theorem U14_x3 (c : Dev nD) : U14 m c main_v62 = x3A m c := by
  show Function.update (U13 m c) (Proc.devRef .tc main_v62) (X14 m c) (Proc.devRef .tc main_v62) = _
  rw [Function.update_self]
  show (dat5 (F := Ideal) (atTc (U13 m)) c).arrAt 3 cfg5.N = _
  rw [V5.arrAt5_eq]
  show Cert.Spec.btOut (U13 m c main_v59) (U13 m c main_v60) (U13 m c main_v61) = _
  rw [U13_agg, U13_dv, U13_b]
  rfl
theorem U14_x1 (c : Dev nD) : U14 m c main_v30 = x1A m c :=
  (U14_of m c main_v30 (by decide)).trans (U13_x1 m c)
theorem U14_x2 (c : Dev nD) : U14 m c main_v46 = x2A m c :=
  (U14_of m c main_v46 (by decide)).trans (U13_x2 m c)
theorem U14_arg2 (c : Dev nD) : U14 m c main_arg2 = btA m c :=
  (U14_of m c main_arg2 (by decide)).trans (U13_arg2 m c)

theorem U15_bt (c : Dev nD) : U15 m c main_v63 = shapeCast _ (btA m c) Facts₀.shapeCasts_S50000_S50000x1 := by
  show StableHlo.after hostOps6 (U14 m c) (Proc.devRef .tc main_v63) = _
  generalize hW : U14 m c = W
  after_results
  subst hW
  rw [U14_arg2]
  rfl
theorem U15_x1 (c : Dev nD) : U15 m c main_v30 = x1A m c :=
  (U15_of m c main_v30 (by decide)).trans (U14_x1 m c)
theorem U15_x2 (c : Dev nD) : U15 m c main_v46 = x2A m c :=
  (U15_of m c main_v46 (by decide)).trans (U14_x2 m c)
theorem U15_x3 (c : Dev nD) : U15 m c main_v62 = x3A m c :=
  (U15_of m c main_v62 (by decide)).trans (U14_x3 m c)
theorem U15_arg2 (c : Dev nD) : U15 m c main_arg2 = btA m c :=
  (U15_of m c main_arg2 (by decide)).trans (U14_arg2 m c)

theorem U16_pool (c : Dev nD) : U16 m c main_v64 = Cert.Spec.poolOut (x3A m c) (shapeCast _ (btA m c) Facts₀.shapeCasts_S50000_S50000x1) := by
  show Function.update (U15 m c) (Proc.devRef .tc main_v64) (X16 m c) (Proc.devRef .tc main_v64) = _
  rw [Function.update_self]
  show (dat6 (F := Ideal) (atTc (U15 m)) c).arrAt 2 cfg6.N = _
  rw [V6.arrAt6_eq]
  show Cert.Spec.poolOut (U15 m c main_v62) (U15 m c main_v63) = _
  rw [U15_x3, U15_bt]
theorem U16_x1 (c : Dev nD) : U16 m c main_v30 = x1A m c :=
  (U16_of m c main_v30 (by decide)).trans (U15_x1 m c)
theorem U16_x2 (c : Dev nD) : U16 m c main_v46 = x2A m c :=
  (U16_of m c main_v46 (by decide)).trans (U15_x2 m c)
theorem U16_x3 (c : Dev nD) : U16 m c main_v62 = x3A m c :=
  (U16_of m c main_v62 (by decide)).trans (U15_x3 m c)
theorem U16_arg2 (c : Dev nD) : U16 m c main_arg2 = btA m c :=
  (U16_of m c main_arg2 (by decide)).trans (U15_arg2 m c)

theorem U17_mean (c : Dev nD) : U17 m c main_v72 = Cert.Spec.meanK (x3A m c) (btA m c) := by
  show StableHlo.after hostOps7 (U16 m c) (Proc.devRef .tc main_v72) = _
  generalize hW : U16 m c = W
  after_results
  subst hW
  rw [U16_pool, U16_arg2]
  rfl
theorem U17_x1 (c : Dev nD) : U17 m c main_v30 = x1A m c :=
  (U17_of m c main_v30 (by decide)).trans (U16_x1 m c)
theorem U17_x2 (c : Dev nD) : U17 m c main_v46 = x2A m c :=
  (U17_of m c main_v46 (by decide)).trans (U16_x2 m c)
theorem U17_x3 (c : Dev nD) : U17 m c main_v62 = x3A m c :=
  (U17_of m c main_v62 (by decide)).trans (U16_x3 m c)

theorem results (c : Dev nD) :
    U17 m c main_v62 = Cert.Spec.x3K (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ U17 m c main_v72 = Cert.Spec.meanK (Cert.Spec.x3K (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg2))
    ∧ U17 m c main_v30 = Cert.Spec.x1K (m ((c.tc : Thread nD τ).loc main_arg0)) (m ((c.tc : Thread nD τ).loc main_arg1)) (m ((c.tc : Thread nD τ).loc main_arg3)) (m ((c.tc : Thread nD τ).loc main_arg4))
    ∧ U17 m c main_v46 = Cert.Spec.x2K (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  ⟨U17_x3 m c, U17_mean m c, U17_x1 m c, U17_x2 m c⟩

end Cert.KernelIdeal.Hand

end
-- ==== Proof.RefRead.lean ====
/- The reference program as a chain of whole-array stages, one per operation, each a function of the argument arrays. -/
import proofs.«414499_j137438954180_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 : (⟨S50000, .i32⟩ : BufTy).Contents (Elt F) :=
  iotaInDim S50000 32 0
def val_main_v1 (x1 : (⟨S2x800000, .i32⟩ : BufTy).Contents (Elt F)) : (⟨S1x800000, .i32⟩ : BufTy).Contents (Elt F) :=
  extractStridedSlice S1x800000 ![0, 0] (x1) slices_S2x800000_S1x800000_0_0
def val_main_v2 (x1 : (⟨S2x800000, .i32⟩ : BufTy).Contents (Elt F)) : (⟨S800000, .i32⟩ : BufTy).Contents (Elt F) :=
  shapeCast _ (val_main_v1 (F := F) x1) shapeCasts_S1x800000_S800000
def val_main_v3 (x1 : (⟨S2x800000, .i32⟩ : BufTy).Contents (Elt F)) : (⟨S850000, .i32⟩ : BufTy).Contents (Elt F) :=
  concatenate S850000 0 [⟨S800000, (val_main_v2 (F := F) x1)⟩, ⟨S50000, (val_main_v0 (F := F))⟩] concatenates_S800000_S50000_S850000_d0
def val_main_v4 (x1 : (⟨S2x800000, .i32⟩ : BufTy).Contents (Elt F)) : (⟨S1x800000, .i32⟩ : BufTy).Contents (Elt F) :=
  extractStridedSlice S1x800000 ![1, 0] (x1) slices_S2x800000_S1x800000_1_0
def val_main_v5 (x1 : (⟨S2x800000, .i32⟩ : BufTy).Contents (Elt F)) : (⟨S800000, .i32⟩ : BufTy).Contents (Elt F) :=
  shapeCast _ (val_main_v4 (F := F) x1) shapeCasts_S1x800000_S800000
def val_main_v6 (x1 : (⟨S2x800000, .i32⟩ : BufTy).Contents (Elt F)) : (⟨S850000, .i32⟩ : BufTy).Contents (Elt F) :=
  concatenate S850000 0 [⟨S800000, (val_main_v5 (F := F) x1)⟩, ⟨S50000, (val_main_v0 (F := F))⟩] concatenates_S800000_S50000_S850000_d0
def val_main_cst : (⟨S_, .f32⟩ : BufTy).Contents (Elt F) :=
  constant S_ .f32 0x3F800000#32
def val_main_v7 : (⟨S850000, .f32⟩ : BufTy).Contents (Elt F) :=
  broadcastInDim S850000 ![] bcast_S_S850000 (val_main_cst (F := F))
def val_main_cst_0 : (⟨S_, .f32⟩ : BufTy).Contents (Elt F) :=
  constant S_ .f32 0x00000000#32
def val_main_v8 : (⟨S50000, .f32⟩ : BufTy).Contents (Elt F) :=
  broadcastInDim S50000 ![] bcast_S_S50000 (val_main_cst_0 (F := F))
def val_main_v9 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)
def val_main_v10 (x1 : (⟨S2x800000, .i32⟩ : BufTy).Contents (Elt F)) : (⟨S50000, .f32⟩ : BufTy).Contents (Elt F) :=
  Host.scatterAdd scatter_S50000_S850000x1_S850000_n_0_0_1 (val_main_v8 (F := F)) (val_main_v9 (F := F) x1) (val_main_v7 (F := F))
def val_main_cst_1 : (⟨S_, .f32⟩ : BufTy).Contents (Elt F) :=
  constant S_ .f32 0x00000000#32
def val_main_v11 : (⟨S50000, .f32⟩ : BufTy).Contents (Elt F) :=
  broadcastInDim S50000 ![] bcast_S_S50000 (val_main_cst_1 (F := F))
def val_main_v12 (x1 : (⟨S2x800000, .i32⟩ : BufTy).Contents (Elt F)) : (⟨S50000, .i1⟩ : BufTy).Contents (Elt F) :=
  cmpf .ogt (val_main_v10 (F := F) x1) (val_main_v11 (F := F))
def val_main_v13 (x1 : (⟨S2x800000, .i32⟩ : BufTy).Contents (Elt F)) : (⟨S50000, .f32⟩ : BufTy).Contents (Elt F) :=
  Host.rsqrt (val_main_v10 (F := F) x1)
def val_main_cst_2 : (⟨S_, .f32⟩ : BufTy).Contents (Elt F) :=
  constant S_ .f32 0x00000000#32
def val_main_call0_v0 : (⟨S_, .f32⟩ : BufTy).Contents (Elt F) :=
  id (val_main_cst_2 (F := F))
def val_main_call0_v1 : (⟨S50000, .f32⟩ : BufTy).Contents (Elt F) :=
  broadcastInDim S50000 ![] bcast_S_S50000 (val_main_call0_v0 (F := F))
def val_main_v14 (x1 : (⟨S2x800000, .i32⟩ : BufTy).Contents (Elt F)) : (⟨S50000, .f32⟩ : BufTy).Contents (Elt F) :=
  select (val_main_v12 (F := F) x1) (val_main_v13 (F := F) x1) (val_main_call0_v1 (F := F))
def val_main_c : (⟨S_, .i32⟩ : BufTy).Contents (Elt F) :=
  constantI S_ 32 0#32
def val_main_v15 : (⟨S850000, .i32⟩ : BufTy).Contents (Elt F) :=
  broadcastInDim S850000 ![] bcast_S_S850000 (val_main_c (F := F))
def val_main_v16 (x1 : (⟨S2x800000, .i32⟩ : BufTy).Contents (Elt F)) : (⟨S850000, .i1⟩ : BufTy).Contents (Elt F) :=
  cmpi .slt (val_main_v3 (F := F) x1) (val_main_v15 (F := F))
def val_main_c_3 : (⟨S_, .i32⟩ : BufTy).Contents (Elt F) :=
  constantI S_ 32 50000#32
def val_main_v17 : (⟨S850000, .i32⟩ : BufTy).Contents (Elt F) :=
  broadcastInDim S850000 ![] bcast_S_S850000 (val_main_c_3 (F := F))
def val_main_v18 (x1 : (⟨S2x800000, .i32⟩ : BufTy).Contents (Elt F)) : (⟨S850000, .i32⟩ : BufTy).Contents (Elt F) :=
  addi (val_main_v3 (F := F) x1) (val_main_v17 (F := F))
def val_main_v19 (x1 : (⟨S2x800000, .i32⟩ : BufTy).Contents (Elt F)) : (⟨S850000, .i32⟩ : BufTy).Contents (Elt F) :=
  select (val_main_v16 (F := F) x1) (val_main_v18 (F := F) x1) (val_main_v3 (F := F) x1)
def val_main_v20 (x1 : (⟨S2x800000, .i32⟩ : BufTy).Contents (Elt F)) : (⟨S850000x1, .i32⟩ : BufTy).Contents (Elt F) :=
  broadcastInDim S850000x1 ![0] bcast_S850000_S850000x1_0 (val_main_v19 (F := F) x1)
def val_main_v21 (x1 : (⟨S2x800000, .i32⟩ : BufTy).Contents (Elt F)) : (⟨S850000, .f32⟩ : BufTy).Contents (Elt F) :=
  Host.gather gather_S50000_S850000x1_S850000_n_0_n_n_0_1_1 (val_main_v14 (F := F) x1) (val_main_v20 (F := F) x1)
def val_main_c_4 : (⟨S_, .i32⟩ : BufTy).Contents (Elt F) :=
  constantI S_ 32 0#32
def val_main_v22 : (⟨S850000, .i32⟩ : BufTy).Contents (Elt F) :=
  broadcastInDim S850000 ![] bcast_S_S850000 (val_main_c_4 (F := F))
def val_main_v23 (x1 : (⟨S2x800000, .i32⟩ : BufTy).Contents (Elt F)) : (⟨S850000, .i1⟩ : BufTy).Contents (Elt F) :=
  cmpi .slt (val_main_v6 (F := F) x1) (val_main_v22 (F := F))
def val_main_c_5 : (⟨S_, .i32⟩ : BufTy).Contents (Elt F) :=
  constantI S_ 32 50000#32
def val_main_v24 : (⟨S850000, .i32⟩ : BufTy).Contents (Elt F) :=
  broadcastInDim S850000 ![] bcast_S_S850000 (val_main_c_5 (F := F))
def val_main_v25 (x1 : (⟨S2x800000, .i32⟩ : BufTy).Contents (Elt F)) : (⟨S850000, .i32⟩ : BufTy).Contents (Elt F) :=
  addi (val_main_v6 (F := F) x1) (val_main_v24 (F := F))
def val_main_v26 (x1 : (⟨S2x800000, .i32⟩ : BufTy).Contents (Elt F)) : (⟨S850000, .i32⟩ : BufTy).Contents (Elt F) :=
  select (val_main_v23 (F := F) x1) (val_main_v25 (F := F) x1) (val_main_v6 (F := F) x1)
def val_main_v27 (x1 : (⟨S2x800000, .i32⟩ : BufTy).Contents (Elt F)) : (⟨S850000x1, .i32⟩ : BufTy).Contents (Elt F) :=
  broadcastInDim S850000x1 ![0] bcast_S850000_S850000x1_0 (val_main_v26 (F := F) x1)
def val_main_v28 (x1 : (⟨S2x800000, .i32⟩ : BufTy).Contents (Elt F)) : (⟨S850000, .f32⟩ : BufTy).Contents (Elt F) :=
  Host.gather gather_S50000_S850000x1_S850000_n_0_n_n_0_1_1 (val_main_v14 (F := F) x1) (val_main_v27 (F := F) x1)
def val_main_v29 (x1 : (⟨S2x800000, .i32⟩ : BufTy).Contents (Elt F)) : (⟨S850000, .f32⟩ : BufTy).Contents (Elt F) :=
  mulf (val_main_v21 (F := F) x1) (val_main_v28 (F := F) x1)
def val_main_v30 (x1 : (⟨S2x800000, .i32⟩ : BufTy).Contents (Elt F)) : (⟨S850000x1, .f32⟩ : BufTy).Contents (Elt F) :=
  broadcastInDim S850000x1 ![0] bcast_S850000_S850000x1_0 (val_main_v29 (F := F) x1)
def val_main_v31 (x0 : (⟨S50000x128, .f32⟩ : BufTy).Contents (Elt F)) (x3 : (⟨S128x128, .f32⟩ : BufTy).Contents (Elt F)) : (⟨S50000x128, .f32⟩ : BufTy).Contents (Elt F) :=
  Host.dotGeneral dot_S50000x128_S128x128_S50000x128_1_0_0_1_n_n none (x0) (x3)
def val_main_c_6 : (⟨S_, .i32⟩ : BufTy).Contents (Elt F) :=
  constantI S_ 32 0#32
def val_main_v32 : (⟨S850000, .i32⟩ : BufTy).Contents (Elt F) :=
  broadcastInDim S850000 ![] bcast_S_S850000 (val_main_c_6 (F := F))
def val_main_v33 (x1 : (⟨S2x800000, .i32⟩ : BufTy).Contents (Elt F)) : (⟨S850000, .i1⟩ : BufTy).Contents (Elt F) :=
  cmpi .slt (val_main_v3 (F := F) x1) (val_main_v32 (F := F))
def val_main_c_7 : (⟨S_, .i32⟩ : BufTy).Contents (Elt F) :=
  constantI S_ 32 50000#32
def val_main_v34 : (⟨S850000, .i32⟩ : BufTy).Contents (Elt F) :=
  broadcastInDim S850000 ![] bcast_S_S850000 (val_main_c_7 (F := F))
def val_main_v35 (x1 : (⟨S2x800000, .i32⟩ : BufTy).Contents (Elt F)) : (⟨S850000, .i32⟩ : BufTy).Contents (Elt F) :=
  addi (val_main_v3 (F := F) x1) (val_main_v34 (F := F))
def val_main_v36 (x1 : (⟨S2x800000, .i32⟩ : BufTy).Contents (Elt F)) : (⟨S850000, .i32⟩ : BufTy).Contents (Elt F) :=
  select (val_main_v33 (F := F) x1) (val_main_v35 (F := F) x1) (val_main_v3 (F := F) x1)
def val_main_v37 (x1 : (⟨S2x800000, .i32⟩ : BufTy).Contents (Elt F)) : (⟨S850000x1, .i32⟩ : BufTy).Contents (Elt F) :=
  broadcastInDim S850000x1 ![0] bcast_S850000_S850000x1_0 (val_main_v36 (F := F) x1)
def val_main_v38 (x0 : (⟨S50000x128, .f32⟩ : BufTy).Contents (Elt F)) (x1 : (⟨S2x800000, .i32⟩ : BufTy).Contents (Elt F)) (x3 : (⟨S128x128, .f32⟩ : BufTy).Contents (Elt F)) : (⟨S850000x128, .f32⟩ : BufTy).Contents (Elt F) :=
  Host.gather gather_S50000x128_S850000x1_S850000x128_1_0_n_n_0_1_1128 (val_main_v31 (F := F) x0 x3) (val_main_v37 (F := F) x1)
def val_main_v39 (x1 : (⟨S2x800000, .i32⟩ : BufTy).Contents (Elt F)) : (⟨S850000x128, .f32⟩ : BufTy).Contents (Elt F) :=
  broadcastInDim S850000x128 ![0, 1] bcast_S850000x1_S850000x128_0_1 (val_main_v30 (F := F) x1)
def val_main_v40 (x0 : (⟨S50000x128, .f32⟩ : BufTy).Contents (Elt F)) (x1 : (⟨S2x800000, .i32⟩ : BufTy).Contents (Elt F)) (x3 : (⟨S128x128, .f32⟩ : BufTy).Contents (Elt F)) : (⟨S850000x128, .f32⟩ : BufTy).Contents (Elt F) :=
  mulf (val_main_v38 (F := F) x0 x1 x3) (val_main_v39 (F := F) x1)
def val_main_cst_8 : (⟨S_, .f32⟩ : BufTy).Contents (Elt F) :=
  constant S_ .f32 0x00000000#32
def val_main_v41 : (⟨S50000x128, .f32⟩ : BufTy).Contents (Elt F) :=
  broadcastInDim S50000x128 ![] bcast_S_S50000x128 (val_main_cst_8 (F := F))
def val_main_v42 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)
def val_main_v43 (x0 : (⟨S50000x128, .f32⟩ : BufTy).Contents (Elt F)) (x1 : (⟨S2x800000, .i32⟩ : BufTy).Contents (Elt F)) (x3 : (⟨S128x128, .f32⟩ : BufTy).Contents (Elt F)) : (⟨S50000x128, .f32⟩ : BufTy).Contents (Elt F) :=
  Host.scatterAdd scatter_S50000x128_S850000x1_S850000x128_1_0_0_1 (val_main_v41 (F := F)) (val_main_v42 (F := F) x1) (val_main_v40 (F := F) x0 x1 x3)
def val_main_v44 (x4 : (⟨S128, .f32⟩ : BufTy).Contents (Elt F)) : (⟨S1x128, .f32⟩ : BufTy).Contents (Elt F) :=
  broadcastInDim S1x128 ![1] bcast_S128_S1x128_1 (x4)
def val_main_v45 (x4 : (⟨S128, .f32⟩ : BufTy).Contents (Elt F)) : (⟨S50000x128, .f32⟩ : BufTy).Contents (Elt F) :=
  broadcastInDim S50000x128 ![0, 1] bcast_S1x128_S50000x128_0_1 (val_main_v44 (F := F) x4)
def val_main_v46 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) : (⟨S50000x128, .f32⟩ : BufTy).Contents (Elt F) :=
  addf (val_main_v43 (F := F) x0 x1 x3) (val_main_v45 (F := F) x4)
def val_main_v47 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) : (⟨S50000x128, .f32⟩ : BufTy).Contents (Elt F) :=
  Host.tanh (val_main_v46 (F := F) x0 x1 x3 x4)
def val_main_v48 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S50000x128, .f32⟩ : BufTy).Contents (Elt F) :=
  Host.dotGeneral dot_S50000x128_S128x128_S50000x128_1_0_0_1_n_n none (val_main_v47 (F := F) x0 x1 x3 x4) (x5)
def val_main_c_9 : (⟨S_, .i32⟩ : BufTy).Contents (Elt F) :=
  constantI S_ 32 0#32
def val_main_v49 : (⟨S850000, .i32⟩ : BufTy).Contents (Elt F) :=
  broadcastInDim S850000 ![] bcast_S_S850000 (val_main_c_9 (F := F))
def val_main_v50 (x1 : (⟨S2x800000, .i32⟩ : BufTy).Contents (Elt F)) : (⟨S850000, .i1⟩ : BufTy).Contents (Elt F) :=
  cmpi .slt (val_main_v3 (F := F) x1) (val_main_v49 (F := F))
def val_main_c_10 : (⟨S_, .i32⟩ : BufTy).Contents (Elt F) :=
  constantI S_ 32 50000#32
def val_main_v51 : (⟨S850000, .i32⟩ : BufTy).Contents (Elt F) :=
  broadcastInDim S850000 ![] bcast_S_S850000 (val_main_c_10 (F := F))
def val_main_v52 (x1 : (⟨S2x800000, .i32⟩ : BufTy).Contents (Elt F)) : (⟨S850000, .i32⟩ : BufTy).Contents (Elt F) :=
  addi (val_main_v3 (F := F) x1) (val_main_v51 (F := F))
def val_main_v53 (x1 : (⟨S2x800000, .i32⟩ : BufTy).Contents (Elt F)) : (⟨S850000, .i32⟩ : BufTy).Contents (Elt F) :=
  select (val_main_v50 (F := F) x1) (val_main_v52 (F := F) x1) (val_main_v3 (F := F) x1)
def val_main_v54 (x1 : (⟨S2x800000, .i32⟩ : BufTy).Contents (Elt F)) : (⟨S850000x1, .i32⟩ : BufTy).Contents (Elt F) :=
  broadcastInDim S850000x1 ![0] bcast_S850000_S850000x1_0 (val_main_v53 (F := F) x1)
def val_main_v55 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S850000x128, .f32⟩ : BufTy).Contents (Elt F) :=
  Host.gather gather_S50000x128_S850000x1_S850000x128_1_0_n_n_0_1_1128 (val_main_v48 (F := F) x0 x1 x3 x4 x5) (val_main_v54 (F := F) x1)
def val_main_v56 (x1 : (⟨S2x800000, .i32⟩ : BufTy).Contents (Elt F)) : (⟨S850000x128, .f32⟩ : BufTy).Contents (Elt F) :=
  broadcastInDim S850000x128 ![0, 1] bcast_S850000x1_S850000x128_0_1 (val_main_v30 (F := F) x1)
def val_main_v57 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S850000x128, .f32⟩ : BufTy).Contents (Elt F) :=
  mulf (val_main_v55 (F := F) x0 x1 x3 x4 x5) (val_main_v56 (F := F) x1)
def val_main_cst_11 : (⟨S_, .f32⟩ : BufTy).Contents (Elt F) :=
  constant S_ .f32 0x00000000#32
def val_main_v58 : (⟨S50000x128, .f32⟩ : BufTy).Contents (Elt F) :=
  broadcastInDim S50000x128 ![] bcast_S_S50000x128 (val_main_cst_11 (F := F))
def val_main_v59 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)
def val_main_v60 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) : (⟨S50000x128, .f32⟩ : BufTy).Contents (Elt F) :=
  Host.scatterAdd scatter_S50000x128_S850000x1_S850000x128_1_0_0_1 (val_main_v58 (F := F)) (val_main_v59 (F := F) x1) (val_main_v57 (F := F) x0 x1 x3 x4 x5)
def val_main_v61 (x6 : (⟨S128, .f32⟩ : BufTy).Contents (Elt F)) : (⟨S1x128, .f32⟩ : BufTy).Contents (Elt F) :=
  broadcastInDim S1x128 ![1] bcast_S128_S1x128_1 (x6)
def val_main_v62 (x6 : (⟨S128, .f32⟩ : BufTy).Contents (Elt F)) : (⟨S50000x128, .f32⟩ : BufTy).Contents (Elt F) :=
  broadcastInDim S50000x128 ![0, 1] bcast_S1x128_S50000x128_0_1 (val_main_v61 (F := F) x6)
def val_main_v63 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) : (⟨S50000x128, .f32⟩ : BufTy).Contents (Elt F) :=
  addf (val_main_v60 (F := F) x0 x1 x3 x4 x5) (val_main_v62 (F := F) x6)
def val_main_v64 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) : (⟨S50000x128, .f32⟩ : BufTy).Contents (Elt F) :=
  Host.tanh (val_main_v63 (F := F) x0 x1 x3 x4 x5 x6)
def val_main_v65 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S50000x128, .f32⟩ : BufTy).Contents (Elt F) :=
  Host.dotGeneral dot_S50000x128_S128x128_S50000x128_1_0_0_1_n_n none (val_main_v64 (F := F) x0 x1 x3 x4 x5 x6) (x7)
def val_main_c_12 : (⟨S_, .i32⟩ : BufTy).Contents (Elt F) :=
  constantI S_ 32 0#32
def val_main_v66 : (⟨S850000, .i32⟩ : BufTy).Contents (Elt F) :=
  broadcastInDim S850000 ![] bcast_S_S850000 (val_main_c_12 (F := F))
def val_main_v67 (x1 : (⟨S2x800000, .i32⟩ : BufTy).Contents (Elt F)) : (⟨S850000, .i1⟩ : BufTy).Contents (Elt F) :=
  cmpi .slt (val_main_v3 (F := F) x1) (val_main_v66 (F := F))
def val_main_c_13 : (⟨S_, .i32⟩ : BufTy).Contents (Elt F) :=
  constantI S_ 32 50000#32
def val_main_v68 : (⟨S850000, .i32⟩ : BufTy).Contents (Elt F) :=
  broadcastInDim S850000 ![] bcast_S_S850000 (val_main_c_13 (F := F))
def val_main_v69 (x1 : (⟨S2x800000, .i32⟩ : BufTy).Contents (Elt F)) : (⟨S850000, .i32⟩ : BufTy).Contents (Elt F) :=
  addi (val_main_v3 (F := F) x1) (val_main_v68 (F := F))
def val_main_v70 (x1 : (⟨S2x800000, .i32⟩ : BufTy).Contents (Elt F)) : (⟨S850000, .i32⟩ : BufTy).Contents (Elt F) :=
  select (val_main_v67 (F := F) x1) (val_main_v69 (F := F) x1) (val_main_v3 (F := F) x1)
def val_main_v71 (x1 : (⟨S2x800000, .i32⟩ : BufTy).Contents (Elt F)) : (⟨S850000x1, .i32⟩ : BufTy).Contents (Elt F) :=
  broadcastInDim S850000x1 ![0] bcast_S850000_S850000x1_0 (val_main_v70 (F := F) x1)
def val_main_v72 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S850000x128, .f32⟩ : BufTy).Contents (Elt F) :=
  Host.gather gather_S50000x128_S850000x1_S850000x128_1_0_n_n_0_1_1128 (val_main_v65 (F := F) x0 x1 x3 x4 x5 x6 x7) (val_main_v71 (F := F) x1)
def val_main_v73 (x1 : (⟨S2x800000, .i32⟩ : BufTy).Contents (Elt F)) : (⟨S850000x128, .f32⟩ : BufTy).Contents (Elt F) :=
  broadcastInDim S850000x128 ![0, 1] bcast_S850000x1_S850000x128_0_1 (val_main_v30 (F := F) x1)
def val_main_v74 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S850000x128, .f32⟩ : BufTy).Contents (Elt F) :=
  mulf (val_main_v72 (F := F) x0 x1 x3 x4 x5 x6 x7) (val_main_v73 (F := F) x1)
def val_main_cst_14 : (⟨S_, .f32⟩ : BufTy).Contents (Elt F) :=
  constant S_ .f32 0x00000000#32
def val_main_v75 : (⟨S50000x128, .f32⟩ : BufTy).Contents (Elt F) :=
  broadcastInDim S50000x128 ![] bcast_S_S50000x128 (val_main_cst_14 (F := F))
def val_main_v76 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)
def val_main_v77 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) : (⟨S50000x128, .f32⟩ : BufTy).Contents (Elt F) :=
  Host.scatterAdd scatter_S50000x128_S850000x1_S850000x128_1_0_0_1 (val_main_v75 (F := F)) (val_main_v76 (F := F) x1) (val_main_v74 (F := F) x0 x1 x3 x4 x5 x6 x7)
def val_main_v78 (x8 : (⟨S128, .f32⟩ : BufTy).Contents (Elt F)) : (⟨S1x128, .f32⟩ : BufTy).Contents (Elt F) :=
  broadcastInDim S1x128 ![1] bcast_S128_S1x128_1 (x8)
def val_main_v79 (x8 : (⟨S128, .f32⟩ : BufTy).Contents (Elt F)) : (⟨S50000x128, .f32⟩ : BufTy).Contents (Elt F) :=
  broadcastInDim S50000x128 ![0, 1] bcast_S1x128_S50000x128_0_1 (val_main_v78 (F := F) x8)
def val_main_v80 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S50000x128, .f32⟩ : BufTy).Contents (Elt F) :=
  addf (val_main_v77 (F := F) x0 x1 x3 x4 x5 x6 x7) (val_main_v79 (F := F) x8)
def val_main_v81 (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S50000x128, .f32⟩ : BufTy).Contents (Elt F) :=
  Host.tanh (val_main_v80 (F := F) x0 x1 x3 x4 x5 x6 x7 x8)
def val_main_cst_15 : (⟨S_, .f32⟩ : BufTy).Contents (Elt F) :=
  constant S_ .f32 0x3F800000#32
def val_main_v82 : (⟨S50000x1, .f32⟩ : BufTy).Contents (Elt F) :=
  broadcastInDim S50000x1 ![] bcast_S_S50000x1 (val_main_cst_15 (F := F))
def val_main_cst_16 : (⟨S_, .f32⟩ : BufTy).Contents (Elt F) :=
  constant S_ .f32 0x00000000#32
def val_main_v83 : (⟨S512x1, .f32⟩ : BufTy).Contents (Elt F) :=
  broadcastInDim S512x1 ![] bcast_S_S512x1 (val_main_cst_16 (F := F))
def val_main_v84 (x2 : (⟨S50000, .i32⟩ : BufTy).Contents (Elt F)) : (⟨S50000x1, .i32⟩ : BufTy).Contents (Elt F) :=
  broadcastInDim S50000x1 ![0] bcast_S50000_S50000x1_0 (x2)
def val_main_v85 (x2 : (⟨S50000, .i32⟩ : BufTy).Contents (Elt F)) : (⟨S512x1, .f32⟩ : BufTy).Contents (Elt F) :=
  Host.scatterAdd scatter_S512x1_S50000x1_S50000x1_1_0_0_1 (val_main_v83 (F := F)) (val_main_v84 (F := F) x2) (val_main_v82 (F := F))
def val_main_cst_17 : (⟨S_, .f32⟩ : BufTy).Contents (Elt F) :=
  constant S_ .f32 0x00000000#32
def val_main_v86 : (⟨S512x128, .f32⟩ : BufTy).Contents (Elt F) :=
  broadcastInDim S512x128 ![] bcast_S_S512x128 (val_main_cst_17 (F := F))
def val_main_v87 (x2 : (⟨S50000, .i32⟩ : BufTy).Contents (Elt F)) : (⟨S50000x1, .i32⟩ : BufTy).Contents (Elt F) :=
  broadcastInDim S50000x1 ![0] bcast_S50000_S50000x1_0 (x2)
def val_main_v88 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S512x128, .f32⟩ : BufTy).Contents (Elt F) :=
  Host.scatterAdd scatter_S512x128_S50000x1_S50000x128_1_0_0_1 (val_main_v86 (F := F)) (val_main_v87 (F := F) x2) (val_main_v81 (F := F) x0 x1 x3 x4 x5 x6 x7 x8)
def val_main_cst_18 : (⟨S_, .f32⟩ : BufTy).Contents (Elt F) :=
  constant S_ .f32 0x3F800000#32
def val_main_v89 : (⟨S512x1, .f32⟩ : BufTy).Contents (Elt F) :=
  broadcastInDim S512x1 ![] bcast_S_S512x1 (val_main_cst_18 (F := F))
def val_main_v90 (x2 : (⟨S50000, .i32⟩ : BufTy).Contents (Elt F)) : (⟨S512x1, .f32⟩ : BufTy).Contents (Elt F) :=
  maximumf (val_main_v85 (F := F) x2) (val_main_v89 (F := F))
def val_main_v91 (x2 : (⟨S50000, .i32⟩ : BufTy).Contents (Elt F)) : (⟨S512x128, .f32⟩ : BufTy).Contents (Elt F) :=
  broadcastInDim S512x128 ![0, 1] bcast_S512x1_S512x128_0_1 (val_main_v90 (F := F) x2)
def val_main_v92 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S512x128, .f32⟩ : BufTy).Contents (Elt F) :=
  Host.divf (val_main_v88 (F := F) x0 x1 x2 x3 x4 x5 x6 x7 x8) (val_main_v91 (F := F) x2)

end Cert.ReferenceIdeal.Read

end
-- ==== Proof.RefRun.lean ====
/- The reference's run: @main is a list of host operations, and every weakly fair execution ends with each result at its stage of the argument arrays, the arguments unchanged. -/
import proofs.«414499_j137438954180_2_alg».proof.Proof.RefRead
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    unary main_v29 main_v30 (broadcastInDim S850000x1 ![0] bcast_S850000_S850000x1_0 : (⟨S850000, .f32⟩ : BufTy).Contents (Elt F) → (⟨S850000x1, .f32⟩ : BufTy).Contents (Elt F)),
    binary main_arg0 main_arg3 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v39 (broadcastInDim S850000x128 ![0, 1] bcast_S850000x1_S850000x128_0_1 : (⟨S850000x1, .f32⟩ : BufTy).Contents (Elt F) → (⟨S850000x128, .f32⟩ : BufTy).Contents (Elt F)),
    binary main_v38 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    unary main_v46 main_v47 (Host.tanh : (⟨S50000x128, .f32⟩ : BufTy).Contents (Elt F) → (⟨S50000x128, .f32⟩ : BufTy).Contents (Elt F)),
    binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v56 (broadcastInDim S850000x128 ![0, 1] bcast_S850000x1_S850000x128_0_1 : (⟨S850000x1, .f32⟩ : BufTy).Contents (Elt F) → (⟨S850000x128, .f32⟩ : BufTy).Contents (Elt F)),
    binary main_v55 main_v56 main_v57 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v58 (broadcastInDim S50000x128 ![] bcast_S_S50000x128 : (⟨S_, .f32⟩ : BufTy).Contents (Elt F) → (⟨S50000x128, .f32⟩ : BufTy).Contents (Elt F)),
    unary main_v6 main_v59 (broadcastInDim S850000x1 ![0] bcast_S850000_S850000x1_0 : (⟨S850000, .i32⟩ : BufTy).Contents (Elt F) → (⟨S850000x1, .i32⟩ : BufTy).Contents (Elt F)),
    ternary main_v58 main_v59 main_v57 main_v60 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v60 main_v62 main_v63 (addf : (⟨S50000x128, .f32⟩ : BufTy).Contents (Elt F) → (⟨S50000x128, .f32⟩ : BufTy).Contents (Elt F) → (⟨S50000x128, .f32⟩ : BufTy).Contents (Elt F)),
    unary main_v63 main_v64 (Host.tanh : (⟨S50000x128, .f32⟩ : BufTy).Contents (Elt F) → (⟨S50000x128, .f32⟩ : BufTy).Contents (Elt F)),
    binary main_v64 main_arg7 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_12 (constantI S_ 32 0#32),
    unary main_c_12 main_v66 (broadcastInDim S850000 ![] bcast_S_S850000 : (⟨S_, .i32⟩ : BufTy).Contents (Elt F) → (⟨S850000, .i32⟩ : BufTy).Contents (Elt F)),
    binary main_v3 main_v66 main_v67 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v68 (broadcastInDim S850000 ![] bcast_S_S850000 : (⟨S_, .i32⟩ : BufTy).Contents (Elt F) → (⟨S850000, .i32⟩ : BufTy).Contents (Elt F)),
    binary main_v3 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v3 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v65 main_v71 main_v72 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v73 (broadcastInDim S850000x128 ![0, 1] bcast_S850000x1_S850000x128_0_1 : (⟨S850000x1, .f32⟩ : BufTy).Contents (Elt F) → (⟨S850000x128, .f32⟩ : BufTy).Contents (Elt F)),
    binary main_v72 main_v73 main_v74 (mulf : (⟨S850000x128, .f32⟩ : BufTy).Contents (Elt F) → (⟨S850000x128, .f32⟩ : BufTy).Contents (Elt F) → (⟨S850000x128, .f32⟩ : BufTy).Contents (Elt F)),
    nullary main_cst_14 (constant S_ .f32 0x00000000#32),
    unary main_cst_14 main_v75 (broadcastInDim S50000x128 ![] bcast_S_S50000x128 : (⟨S_, .f32⟩ : BufTy).Contents (Elt F) → (⟨S50000x128, .f32⟩ : BufTy).Contents (Elt F)),
    unary main_v6 main_v76 (broadcastInDim S850000x1 ![0] bcast_S850000_S850000x1_0 : (⟨S850000, .i32⟩ : BufTy).Contents (Elt F) → (⟨S850000x1, .i32⟩ : BufTy).Contents (Elt F)),
    ternary main_v75 main_v76 main_v74 main_v77 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg8 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v77 main_v79 main_v80 (addf : (⟨S50000x128, .f32⟩ : BufTy).Contents (Elt F) → (⟨S50000x128, .f32⟩ : BufTy).Contents (Elt F) → (⟨S50000x128, .f32⟩ : BufTy).Contents (Elt F)),
    unary main_v80 main_v81 (Host.tanh : (⟨S50000x128, .f32⟩ : BufTy).Contents (Elt F) → (⟨S50000x128, .f32⟩ : BufTy).Contents (Elt F)),
    nullary main_cst_15 (constant S_ .f32 0x3F800000#32),
    unary main_cst_15 main_v82 (broadcastInDim S50000x1 ![] bcast_S_S50000x1 : (⟨S_, .f32⟩ : BufTy).Contents (Elt F) → (⟨S50000x1, .f32⟩ : BufTy).Contents (Elt F)),
    nullary main_cst_16 (constant S_ .f32 0x00000000#32),
    unary main_cst_16 main_v83 (broadcastInDim S512x1 ![] bcast_S_S512x1 : (⟨S_, .f32⟩ : BufTy).Contents (Elt F) → (⟨S512x1, .f32⟩ : BufTy).Contents (Elt F)),
    unary main_arg2 main_v84 (broadcastInDim S50000x1 ![0] bcast_S50000_S50000x1_0 : (⟨S50000, .i32⟩ : BufTy).Contents (Elt F) → (⟨S50000x1, .i32⟩ : BufTy).Contents (Elt F)),
    ternary main_v83 main_v84 main_v82 main_v85 ((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)),
    nullary main_cst_17 (constant S_ .f32 0x00000000#32),
    unary main_cst_17 main_v86 (broadcastInDim S512x128 ![] bcast_S_S512x128 : (⟨S_, .f32⟩ : BufTy).Contents (Elt F) → (⟨S512x128, .f32⟩ : BufTy).Contents (Elt F)),
    unary main_arg2 main_v87 (broadcastInDim S50000x1 ![0] bcast_S50000_S50000x1_0 : (⟨S50000, .i32⟩ : BufTy).Contents (Elt F) → (⟨S50000x1, .i32⟩ : BufTy).Contents (Elt F)),
    ternary main_v86 main_v87 main_v81 main_v88 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_cst_18 (constant S_ .f32 0x3F800000#32),
    unary main_cst_18 main_v89 (broadcastInDim S512x1 ![] bcast_S_S512x1 : (⟨S_, .f32⟩ : BufTy).Contents (Elt F) → (⟨S512x1, .f32⟩ : BufTy).Contents (Elt F)),
    binary main_v85 main_v89 main_v90 (maximumf : (⟨S512x1, .f32⟩ : BufTy).Contents (Elt F) → (⟨S512x1, .f32⟩ : BufTy).Contents (Elt F) → (⟨S512x1, .f32⟩ : BufTy).Contents (Elt F)),
    unary main_v90 main_v91 (broadcastInDim S512x128 ![0, 1] bcast_S512x1_S512x128_0_1 : (⟨S512x1, .f32⟩ : BufTy).Contents (Elt F) → (⟨S512x128, .f32⟩ : BufTy).Contents (Elt F)),
    binary main_v88 main_v91 main_v92 (Host.divf : (⟨S512x128, .f32⟩ : BufTy).Contents (Elt F) → (⟨S512x128, .f32⟩ : BufTy).Contents (Elt F) → (⟨S512x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., binary_bufs_sub ..⟩

set_option maxRecDepth 8192 in
set_option maxHeartbeats 46400000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = Cert.ReferenceIdeal.Read.val_main_v81 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v92) = Cert.ReferenceIdeal.Read.val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v47) = Cert.ReferenceIdeal.Read.val_main_v47 (F := F) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v64) = Cert.ReferenceIdeal.Read.val_main_v64 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v81) = Cert.ReferenceIdeal.Read.val_main_v81 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v81).trans (by after_results_simp <;> rfl),
      (h c main_v92).trans (by after_results_simp <;> rfl),
      (h c main_v47).trans (by after_results_simp <;> rfl),
      (h c main_v64).trans (by after_results_simp <;> rfl),
      (h c main_v81).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Value

end
-- ==== Proof.RefSide.lean ====
import proofs.«414499_j137438954180_2_alg».proof.Proof.RefRun
import proofs.«414499_j137438954180_2_alg».proof.Proof.Spec2

noncomputable section

namespace Cert.ReferenceIdeal.RefValue

open Cert.ReferenceIdeal Cert.ReferenceIdeal.Gen Idealize.ShloMosaic Idealize.ShloMosaic.TcCoe Idealize.SL.Sem Idealize.ShloMosaic.StableHlo

open Cert.ReferenceIdeal.Read Cert.Spec

theorem row_stage (x1 : (⟨S2x800000, .i32⟩ : BufTy).Contents (Elt Ideal)) : val_main_v3 (F := Ideal) x1 = rowR x1 := by
  unfold rowR; rfl

theorem col_stage (x1 : (⟨S2x800000, .i32⟩ : BufTy).Contents (Elt Ideal)) : val_main_v6 (F := Ideal) x1 = colR x1 := by
  unfold colR; rfl

theorem deg_stage (x1 : (⟨S2x800000, .i32⟩ : BufTy).Contents (Elt Ideal)) : val_main_v10 (F := Ideal) x1 = degR (colR x1) := by
  unfold degR; rw [← col_stage]; rfl

theorem dinv_stage (x1 : (⟨S2x800000, .i32⟩ : BufTy).Contents (Elt Ideal)) : val_main_v14 (F := Ideal) x1 = dinvR (colR x1) := by
  unfold dinvR; rw [← deg_stage]; rfl

theorem wrap_row_stage (x1 : (⟨S2x800000, .i32⟩ : BufTy).Contents (Elt Ideal)) : val_main_v19 (F := Ideal) x1 = wrapR (rowR x1) := by
  unfold wrapR; rw [← row_stage]; rfl
theorem wrap_row_stage₁ (x1 : (⟨S2x800000, .i32⟩ : BufTy).Contents (Elt Ideal)) : val_main_v36 (F := Ideal) x1 = wrapR (rowR x1) := by
  unfold wrapR; rw [← row_stage]; rfl
theorem wrap_row_stage₂ (x1 : (⟨S2x800000, .i32⟩ : BufTy).Contents (Elt Ideal)) : val_main_v53 (F := Ideal) x1 = wrapR (rowR x1) := by
  unfold wrapR; rw [← row_stage]; rfl
theorem wrap_row_stage₃ (x1 : (⟨S2x800000, .i32⟩ : BufTy).Contents (Elt Ideal)) : val_main_v70 (F := Ideal) x1 = wrapR (rowR x1) := by
  unfold wrapR; rw [← row_stage]; rfl

theorem wrap_col_stage (x1 : (⟨S2x800000, .i32⟩ : BufTy).Contents (Elt Ideal)) : val_main_v26 (F := Ideal) x1 = wrapR (colR x1) := by
  unfold wrapR; rw [← col_stage]; rfl

theorem norm_stage (x1 : (⟨S2x800000, .i32⟩ : BufTy).Contents (Elt Ideal)) :
    val_main_v30 (F := Ideal) x1 = normR (dinvR (colR x1)) (rowR x1) (colR x1) := by
  unfold normR; rw [← wrap_row_stage, ← wrap_col_stage, ← dinv_stage]; rfl

theorem layer_stage₁ (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) :
    val_main_v47 (F := Ideal) x0 x1 x3 x4 = x1R x0 x1 x3 x4 := by
  unfold x1R layerR; rw [← wrap_row_stage₁, ← norm_stage, ← col_stage]; rfl

theorem layer_stage₂ (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v64 (F := Ideal) x0 x1 x3 x4 x5 x6 = x2R x0 x1 x3 x4 x5 x6 := by
  unfold x2R layerR; rw [← wrap_row_stage₂, ← norm_stage, ← col_stage, ← layer_stage₁]; rfl

theorem layer_stage₃ (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v81 (F := Ideal) x0 x1 x3 x4 x5 x6 x7 x8 = x3R x0 x1 x3 x4 x5 x6 x7 x8 := by
  unfold x3R layerR; rw [← wrap_row_stage₃, ← norm_stage, ← col_stage, ← layer_stage₂]; rfl

theorem mean_stage (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v92 (F := Ideal) x0 x1 x2 x3 x4 x5 x6 x7 x8 = meanR (x3R x0 x1 x3 x4 x5 x6 x7 x8) x2 := by
  unfold meanR poolR cntR; rw [← layer_stage₃]; rfl

theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v81) = Cert.Spec.x3R (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
      ∧ r.2.mem ((c.tc : Thread nD τ).loc main_v92) = Cert.Spec.meanR (Cert.Spec.x3R (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))) (m' ((c.tc : Thread nD τ).loc main_arg2))
      ∧ r.2.mem ((c.tc : Thread nD τ).loc main_v47) = Cert.Spec.x1R (m' ((c.tc : Thread nD τ).loc main_arg0)) (m' ((c.tc : Thread nD τ).loc main_arg1)) (m' ((c.tc : Thread nD τ).loc main_arg3)) (m' ((c.tc : Thread nD τ).loc main_arg4))
      ∧ r.2.mem ((c.tc : Thread nD τ).loc main_v64) = Cert.Spec.x2R (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)) := by
  refine (θ_run (defs (F := Ideal)) _ _).mono (fun r h c => ?_) (Cert.ReferenceIdeal.Value.run (F := Ideal) m' ρ')
  obtain ⟨h81, h92, h47, h64, -, a0, a1, a2, a3, a4, a5, a6, a7, a8⟩ := h c
  exact ⟨h81.trans (layer_stage₃ _ _ _ _ _ _ _ _),
    h92.trans (mean_stage _ _ _ _ _ _ _ _ _),
    h47.trans (layer_stage₁ _ _ _ _),
    h64.trans (layer_stage₂ _ _ _ _ _ _),
    a0, a1, a2, a3, a4, a5, a6, a7, a8⟩

end Cert.ReferenceIdeal.RefValue

end
-- ==== Proof.LayerLaw.lean ====
import proofs.«414499_j137438954180_2_alg».proof.Proof.Spec
import Idealize.ShloMosaic.Lib.Pipeline.Value
import Idealize.ShloMosaic.Lib.StackMember
import Mathlib.Data.EReal.Operations

noncomputable section

namespace Cert.Spec

open Idealize.ShloMosaic Idealize.ShloMosaic.ValueIdx
open scoped BigOperators

section Idx
variable {α : Type}

theorem bcastCol_apply (h : (⟨1, ![850000]⟩ : Shape).BroadcastsInDim ⟨2, ![850000, 1]⟩ ![0])
    (r : (⟨1, ![850000]⟩ : Shape).Idx → α) (e : Fin 850000) (z : Fin 1) :
    broadcastInDim ⟨2, ![850000, 1]⟩ ![0] h r (ix2 e z) = r (ix1 e) :=
  broadcastInDim_apply _ h r _ _ fun a => match a with | ⟨0, _⟩ => rfl

theorem bcastLanes_apply (h : (⟨2, ![850000, 1]⟩ : Shape).BroadcastsInDim ⟨2, ![850000, 128]⟩ ![0, 1])
    (v : (⟨2, ![850000, 1]⟩ : Shape).Idx → α) (e : Fin 850000) (q : Fin 128) :
    broadcastInDim ⟨2, ![850000, 128]⟩ ![0, 1] h v (ix2 e q) = v (ix2 e 0) :=
  broadcastInDim_apply _ h v _ _ fun a => match a with | ⟨0, _⟩ => rfl | ⟨1, _⟩ => rfl

theorem bcastBias_apply (h : (⟨2, ![1, 128]⟩ : Shape).BroadcastsInDim ⟨2, ![50000, 128]⟩ ![0, 1])
    (h' : (⟨1, ![128]⟩ : Shape).BroadcastsInDim ⟨2, ![1, 128]⟩ ![1])
    (b : (⟨1, ![128]⟩ : Shape).Idx → α) (n : Fin 50000) (d : Fin 128) :
    broadcastInDim ⟨2, ![50000, 128]⟩ ![0, 1] h (broadcastInDim ⟨2, ![1, 128]⟩ ![1] h' b) (ix2 n d) = b (ix1 d) := by
  refine (broadcastInDim_apply _ h _ _ (ix2 0 d) fun a => match a with | ⟨0, _⟩ => rfl | ⟨1, _⟩ => rfl).trans ?_
  exact broadcastInDim_apply _ h' b _ _ fun a => match a with | ⟨0, _⟩ => rfl

theorem colOf_apply (h : (⟨1, ![50000]⟩ : Shape).ShapeCasts ⟨2, ![50000, 1]⟩)
    (v : (⟨1, ![50000]⟩ : Shape).Idx → α) (n : Fin 50000) (z : Fin 1) :
    shapeCast ⟨2, ![50000, 1]⟩ v h (ix2 n z) = v (ix1 n) := by
  refine shapeCast_apply v h _ _ ?_
  rw [Shape.rowMajor_val_one, Shape.rowMajor_val_two]
  show n.val = n.val * 1 + z.val
  omega

theorem rowOf_apply (h : (⟨1, ![128]⟩ : Shape).ShapeCasts ⟨2, ![1, 128]⟩)
    (v : (⟨1, ![128]⟩ : Shape).Idx → α) (z : Fin 1) (d : Fin 128) :
    shapeCast ⟨2, ![1, 128]⟩ v h (ix2 z d) = v (ix1 d) := by
  refine shapeCast_apply v h _ _ ?_
  rw [Shape.rowMajor_val_one, Shape.rowMajor_val_two]
  show d.val = z.val * 128 + d.val
  omega

end Idx

section GatherScatter
variable {α : Type}

abbrev rowsDims (wf : GatherDims.WF ⟨2, ![50000, 128]⟩ ⟨2, ![850000, 1]⟩ ⟨2, ![850000, 128]⟩ [1] [0] [] [0] [] 1 ![1, 128]) :
    GatherDims ⟨2, ![50000, 128]⟩ ⟨2, ![850000, 1]⟩ ⟨2, ![850000, 128]⟩ :=
  ⟨[1], [0], [], [], [0], 1, ![1, 128], wf⟩

def srcRow (idx : IVec ⟨2, ![850000, 1]⟩ 32) (e : Fin 850000) : Fin 50000 :=
  ⟨min (idx (ix2 e 0)).toInt.toNat 49999, by omega⟩

theorem gatherRows_apply (wf : GatherDims.WF ⟨2, ![50000, 128]⟩ ⟨2, ![850000, 1]⟩ ⟨2, ![850000, 128]⟩ [1] [0] [] [0] [] 1 ![1, 128])
    (hs : (⟨2, ![50000, 128]⟩ : Shape).Idx → α) (idx : IVec ⟨2, ![850000, 1]⟩ 32) (e : Fin 850000) (q : Fin 128) :
    Host.gather (rowsDims wf) hs idx (ix2 e q) = hs (ix2 (srcRow idx e) q) := by
  unfold Host.gather
  congr 1
  funext a
  refine Fin.ext ?_
  match a with
  | ⟨0, _⟩ =>
    show GatherDims.start _ (ix2 e q) idx 0 + GatherDims.batchCoord _ (ix2 e q) 0 + GatherDims.offCoord _ (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx (ix2 e q)
        ⟨List.idxOf (0 : Fin 2) (rowsDims wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show GatherDims.start _ (ix2 e q) idx 1 + GatherDims.batchCoord _ (ix2 e q) 1 + GatherDims.offCoord _ (ix2 e q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

abbrev vecDims (wf : GatherDims.WF ⟨1, ![50000]⟩ ⟨2, ![850000, 1]⟩ ⟨1, ![850000]⟩ [] [0] [] [0] [] 1 ![1]) :
    GatherDims ⟨1, ![50000]⟩ ⟨2, ![850000, 1]⟩ ⟨1, ![850000]⟩ :=
  ⟨[], [0], [], [], [0], 1, ![1], wf⟩

theorem gatherVec_apply (wf : GatherDims.WF ⟨1, ![50000]⟩ ⟨2, ![850000, 1]⟩ ⟨1, ![850000]⟩ [] [0] [] [0] [] 1 ![1])
    (v : (⟨1, ![50000]⟩ : Shape).Idx → α) (idx : IVec ⟨2, ![850000, 1]⟩ 32) (e : Fin 850000) :
    Host.gather (vecDims wf) v idx (ix1 e) = v (ix1 (srcRow idx e)) := by
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims wf).startIndexMap from List.mem_singleton.mpr rfl)]
    have hsi : (vecDims wf).siIdx (ix1 e)
        ⟨List.idxOf (0 : Fin 1) (vecDims wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl

abbrev scatDims (wf : ScatterDims.WF ⟨2, ![50000, 128]⟩ ⟨2, ![850000, 1]⟩ ⟨2, ![850000, 128]⟩ [1] [0] [0] 1) :
    ScatterDims ⟨2, ![50000, 128]⟩ ⟨2, ![850000, 1]⟩ ⟨2, ![850000, 128]⟩ :=
  ⟨[1], [0], [0], 1, wf⟩

theorem scatRows_iff (wf : ScatterDims.WF ⟨2, ![50000, 128]⟩ ⟨2, ![850000, 1]⟩ ⟨2, ![850000, 128]⟩ [1] [0] [0] 1)
    (idx : IVec ⟨2, ![850000, 1]⟩ 32) (e : Fin 850000) (q : Fin 128) (n : Fin 50000) (d : Fin 128) :
    (scatDims wf).resultIdx? (ix2 e q) idx = some (ix2 n d) ↔ (idx (ix2 e 0)).toInt = (n.val : Int) ∧ q.val = d.val := by
  have hs0 : (scatDims wf).start (ix2 e q) idx 0 = (idx (ix2 e 0)).toInt := by
    unfold ScatterDims.start
    rw [dif_pos (show (0 : Fin 2) ∈ (scatDims wf).scatterDimsToOperandDims from List.mem_singleton.mpr rfl)]
    have hsi : (scatDims wf).siIdx (ix2 e q)
        ⟨List.idxOf (0 : Fin 2) (scatDims wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (scatDims wf).start (ix2 e q) idx 1 = 0 := by
    unfold ScatterDims.start
    rw [dif_neg (show (1 : Fin 2) ∉ ([0] : List (Fin 2)) by decide)]
  have hw0 : (scatDims wf).window (ix2 e q) 0 = 0 := by
    unfold ScatterDims.window
    rw [dif_neg (show (0 : Fin 2) ∉ (⟨2, ![50000, 128]⟩ : Shape).kept [0] by decide)]
  have hw1 : (scatDims wf).window (ix2 e q) 1 = q.val := by
    unfold ScatterDims.window
    rw [dif_pos (show (1 : Fin 2) ∈ (⟨2, ![50000, 128]⟩ : Shape).kept [0] by decide)]
    rfl
  unfold ScatterDims.resultIdx?
  constructor
  · intro h
    split at h
    · rename_i hall
      have h' := Option.some.inj h
      have h0 : ((scatDims wf).start (ix2 e q) idx 0 + ((scatDims wf).window (ix2 e q) 0 : Int)).toNat = n.val :=
        congrArg Fin.val (congrFun h' 0)
      have h1 : ((scatDims wf).start (ix2 e q) idx 1 + ((scatDims wf).window (ix2 e q) 1 : Int)).toNat = d.val :=
        congrArg Fin.val (congrFun h' 1)
      have hall0 := (hall 0).1
      rw [hs0, hw0] at h0 hall0
      rw [hs1, hw1] at h1
      refine ⟨by omega, by omega⟩
    · cases h
  · rintro ⟨h0, hqd⟩
    obtain rfl : q = d := Fin.ext hqd
    have hall : ∀ a, 0 ≤ (scatDims wf).start (ix2 e q) idx a + ((scatDims wf).window (ix2 e q) a : Int) ∧
        (scatDims wf).start (ix2 e q) idx a + ((scatDims wf).window (ix2 e q) a : Int) < (⟨2, ![50000, 128]⟩ : Shape).size a := by
      intro a
      match a with
      | ⟨0, _⟩ =>
        show 0 ≤ (scatDims wf).start (ix2 e q) idx 0 + ((scatDims wf).window (ix2 e q) 0 : Int) ∧
          (scatDims wf).start (ix2 e q) idx 0 + ((scatDims wf).window (ix2 e q) 0 : Int) < (50000 : Nat)
        rw [hs0, hw0, h0]
        have := n.isLt
        omega
      | ⟨1, _⟩ =>
        show 0 ≤ (scatDims wf).start (ix2 e q) idx 1 + ((scatDims wf).window (ix2 e q) 1 : Int) ∧
          (scatDims wf).start (ix2 e q) idx 1 + ((scatDims wf).window (ix2 e q) 1 : Int) < (128 : Nat)
        rw [hs1, hw1]
        have := q.isLt
        omega
    rw [dif_pos hall]
    congr 1
    funext a
    refine Fin.ext ?_
    match a with
    | ⟨0, _⟩ =>
      show ((scatDims wf).start (ix2 e q) idx 0 + ((scatDims wf).window (ix2 e q) 0 : Int)).toNat = n.val
      rw [hs0, hw0, h0]; omega
    | ⟨1, _⟩ =>
      show ((scatDims wf).start (ix2 e q) idx 1 + ((scatDims wf).window (ix2 e q) 1 : Int)).toNat = q.val
      rw [hs1, hw1]; omega

end GatherScatter

section Algebra

/-- Multiplication by a non-negative real distributes over any sum of extended reals (no `+∞ - ∞` can arise). -/
theorem sum_mul_nonneg_real {ι : Type*} (s : Finset ι) (a : ι → EReal) {r : ℝ} (hr : 0 ≤ r) :
    (∑ j ∈ s, a j) * (r : EReal) = ∑ j ∈ s, a j * (r : EReal) := by
  classical
  induction s using Finset.induction_on with
  | empty => simp
  | insert j s hj ih =>
    rw [Finset.sum_insert hj, Finset.sum_insert hj,
      EReal.right_distrib_of_nonneg_of_ne_top (EReal.coe_nonneg.mpr hr) (EReal.coe_ne_top r), ih]

theorem scatterAdd_rows_apply (wf : ScatterDims.WF ⟨2, ![50000, 128]⟩ ⟨2, ![850000, 1]⟩ ⟨2, ![850000, 128]⟩ [1] [0] [0] 1)
    (z : FVec Ideal ⟨2, ![50000, 128]⟩ .f32) (idx : IVec ⟨2, ![850000, 1]⟩ 32) (upd : FVec Ideal ⟨2, ![850000, 128]⟩ .f32)
    (n : Fin 50000) (d : Fin 128) :
    Host.scatterAdd (scatDims wf) z idx upd (ix2 n d)
      = z (ix2 n d) + ∑ j ∈ Finset.univ.filter (fun j : (⟨2, ![850000, 128]⟩ : Shape).Idx =>
          (idx (ix2 (j 0) 0)).toInt = (n.val : Int) ∧ (j 1).val = d.val), upd j := by
  show Ideal.hostScatterAdd (scatDims wf) z idx upd (ix2 n d) = _
  unfold Ideal.hostScatterAdd
  refine congrArg (z (ix2 n d) + ·) ?_
  refine Finset.sum_congr (Finset.filter_congr fun j _ => ?_) fun _ _ => rfl
  obtain ⟨e, q, rfl⟩ : ∃ (e : Fin 850000) (q : Fin 128), j = ix2 e q := ⟨j 0, j 1, eq_ix2 j⟩
  exact scatRows_iff wf idx e q n d

end Algebra

section Wrap
open Cert.ReferenceIdeal Cert.ReferenceIdeal.Facts₀

theorem wrapR_of_nonneg (c : IVec S850000 32) (e : Fin 850000) (h : 0 ≤ (c (ix1 e)).toInt) : wrapR c (ix1 e) = c (ix1 e) := by
  show Scalar.select (IntOp.cmpi .slt (c (ix1 e)) 0#32) (IntOp.addi (c (ix1 e)) 50000#32) (c (ix1 e)) = _
  have hc : IntOp.cmpi .slt (c (ix1 e)) 0#32 = 0#1 := by
    have hlt : (c (ix1 e)).slt 0#32 = false := by
      rw [BitVec.slt]
      simpa using h
    simp only [IntOp.cmpi, hlt]
    rfl
  rw [hc, select_zero]

end Wrap

section Assemble
open Cert.KernelIdeal Cert.KernelIdeal.Facts₀

def srcOf (row : IVec S850000 32) (e : Fin 850000) : Fin 50000 :=
  srcRow (broadcastInDim S850000x1 ![0] bcast_S850000_S850000x1_0 (wrapK row)) e

def landing (col : IVec S850000 32) (n : Fin 50000) (d : Fin 128) : Finset S850000x128.Idx :=
  Finset.univ.filter fun j : S850000x128.Idx => (col (ix1 (j 0))).toInt = (n.val : Int) ∧ (j 1).val = d.val

theorem aggK_apply (row col : IVec S850000 32) (hs : FVec Ideal S50000x128 .bf16) (n : Fin 50000) (d : Fin 128) :
    aggK row col hs (ix2 n d) = ∑ j ∈ landing col n d, hs (ix2 (srcOf row (j 0)) (j 1)) := by
  refine (scatterAdd_rows_apply scatter_S50000x128_S850000x1_S850000x128_1_0_0_1_wf _ _ _ n d).trans ?_
  rw [show (broadcastInDim S50000x128 ![] bcast_S_S50000x128 (constant (F := Ideal) S_ .f32 0x00000000#32)) (ix2 n d) = 0
    from Ideal.ofBits_zero_f32, zero_add]
  refine Finset.sum_congr (Finset.filter_congr fun j _ => ?_) fun j _ => ?_
  · obtain ⟨e, q, rfl⟩ : ∃ (e : Fin 850000) (q : Fin 128), j = ix2 e q := ⟨j 0, j 1, eq_ix2 j⟩
    show (broadcastInDim S850000x1 ![0] bcast_S850000_S850000x1_0 col (ix2 e 0)).toInt = (n.val : Int) ∧ q.val = d.val
      ↔ (col (ix1 e)).toInt = (n.val : Int) ∧ q.val = d.val
    rw [bcastCol_apply]
  · obtain ⟨e, q, rfl⟩ : ∃ (e : Fin 850000) (q : Fin 128), j = ix2 e q := ⟨j 0, j 1, eq_ix2 j⟩
    exact gatherRows_apply gather_S50000x128_S850000x1_S850000x128_1_0_n_n_0_1_1128_wf hs _ e q

theorem msOut_apply (x : FVec Ideal S50000x128 .f32) (w : FVec Ideal S128x128 .f32) (dv : FVec Ideal S50000x1 .f32)
    (p : Fin 50000) (q : Fin 128) :
    msOut x w dv (ix2 p q) = (∑ k : Fin 128, x (ix2 p k) * w (ix2 k q)) * dv (ix2 p 0) := rfl

theorem btOut_apply (agg : FVec Ideal S50000x128 .f32) (dv : FVec Ideal S50000x1 .f32) (b : FVec Ideal S1x128 .f32)
    (n : Fin 50000) (d : Fin 128) :
    btOut agg dv b (ix2 n d) = Ideal.tanh (agg (ix2 n d) * dv (ix2 n 0) + b (ix2 0 d)) := rfl

theorem layerK_apply (dinv : FVec Ideal S50000 .f32) (row col : IVec S850000 32) (x : FVec Ideal S50000x128 .f32)
    (w : FVec Ideal S128x128 .f32) (b : FVec Ideal S128 .f32) (n : Fin 50000) (d : Fin 128) :
    layerK dinv row col x w b (ix2 n d)
      = Ideal.tanh ((∑ j ∈ landing col n d,
            (∑ k : Fin 128, x (ix2 (srcOf row (j 0)) k) * w (ix2 k (j 1))) * dinv (ix1 (srcOf row (j 0)))) * dinv (ix1 n)
          + b (ix1 d)) := by
  unfold layerK
  rw [btOut_apply, colOf_apply, rowOf_apply, aggK_apply]
  refine congrArg Ideal.tanh (congrArg (· + b (ix1 d)) (congrArg (· * dinv (ix1 n)) ?_))
  refine Finset.sum_congr rfl fun j _ => ?_
  obtain ⟨e, q, rfl⟩ : ∃ (e : Fin 850000) (q : Fin 128), j = ix2 e q := ⟨j 0, j 1, eq_ix2 j⟩
  show msOut x w _ (ix2 (srcOf row e) q)
    = (∑ k : Fin 128, x (ix2 (srcOf row e) k) * w (ix2 k q)) * dinv (ix1 (srcOf row e))
  rw [msOut_apply, colOf_apply]

end Assemble

section AssembleR
open Cert.ReferenceIdeal Cert.ReferenceIdeal.Facts₀

def tgtOf (col : IVec S850000 32) (e : Fin 850000) : Fin 50000 :=
  srcRow (broadcastInDim S850000x1 ![0] bcast_S850000_S850000x1_0 (wrapR col)) e

theorem normR_apply (dinv : FVec Ideal S50000 .f32) (row col : IVec S850000 32) (e : Fin 850000) (z : Fin 1) :
    normR dinv row col (ix2 e z) = dinv (ix1 (srcOf row e)) * dinv (ix1 (tgtOf col e)) := by
  refine (bcastCol_apply _ _ e z).trans ?_
  exact congrArg₂ (· * ·)
    (gatherVec_apply gather_S50000_S850000x1_S850000_n_0_n_n_0_1_1_wf dinv _ e)
    (gatherVec_apply gather_S50000_S850000x1_S850000_n_0_n_n_0_1_1_wf dinv _ e)

theorem hostTanh_apply {s : Shape} {φ : FTy} (X : FVec Ideal s φ) (i : s.Idx) : Host.tanh X i = Ideal.tanh (X i) := rfl

theorem layerR_apply (dinv : FVec Ideal S50000 .f32) (row col : IVec S850000 32) (x : FVec Ideal S50000x128 .f32)
    (w : FVec Ideal S128x128 .f32) (b : FVec Ideal S128 .f32) (n : Fin 50000) (d : Fin 128) :
    layerR dinv row col x w b (ix2 n d)
      = Ideal.tanh ((∑ j ∈ landing col n d,
            (∑ k : Fin 128, x (ix2 (srcOf row (j 0)) k) * w (ix2 k (j 1)))
              * (dinv (ix1 (srcOf row (j 0))) * dinv (ix1 (tgtOf col (j 0)))))
          + b (ix1 d)) := by
  unfold layerR
  rw [hostTanh_apply, addf_apply, bcastBias_apply]
  refine congrArg Ideal.tanh (congrArg (· + b (ix1 d)) ?_)
  refine (scatterAdd_rows_apply scatter_S50000x128_S850000x1_S850000x128_1_0_0_1_wf _ _ _ n d).trans ?_
  rw [show (broadcastInDim S50000x128 ![] bcast_S_S50000x128 (constant (F := Ideal) S_ .f32 0x00000000#32)) (ix2 n d) = 0
    from Ideal.ofBits_zero_f32, zero_add]
  refine Finset.sum_congr (Finset.filter_congr fun j _ => ?_) fun j _ => ?_
  · obtain ⟨e, q, rfl⟩ : ∃ (e : Fin 850000) (q : Fin 128), j = ix2 e q := ⟨j 0, j 1, eq_ix2 j⟩
    show (broadcastInDim S850000x1 ![0] bcast_S850000_S850000x1_0 col (ix2 e 0)).toInt = (n.val : Int) ∧ q.val = d.val
      ↔ (col (ix1 e)).toInt = (n.val : Int) ∧ q.val = d.val
    rw [bcastCol_apply]
  · obtain ⟨e, q, rfl⟩ : ∃ (e : Fin 850000) (q : Fin 128), j = ix2 e q := ⟨j 0, j 1, eq_ix2 j⟩
    rw [mulf_apply, bcastLanes_apply, normR_apply]
    refine congrArg (· * (dinv (ix1 (srcOf row e)) * dinv (ix1 (tgtOf col e)))) ?_
    refine (gatherRows_apply gather_S50000x128_S850000x1_S850000x128_1_0_n_n_0_1_1128_wf _ _ e q).trans ?_
    exact StackMember.dotGeneral_plain_apply none x w (srcOf row e) q

end AssembleR

/-- Scaling the source rows before they are gathered and the summed messages after equals scaling every edge's message by both factors: the target factor is a non-negative real and moves inside the sum. -/
theorem layer_eq (dinv : FVec Ideal Cert.KernelIdeal.S50000 .f32) (hd : NonnegReal dinv) (row col : IVec Cert.KernelIdeal.S850000 32)
    (x : FVec Ideal Cert.KernelIdeal.S50000x128 .f32) (w : FVec Ideal Cert.KernelIdeal.S128x128 .f32)
    (b : FVec Ideal Cert.KernelIdeal.S128 .f32) :
    layerK dinv row col x w b = layerR dinv row col x w b := by
  funext i
  obtain ⟨n, d, rfl⟩ : ∃ (n : Fin 50000) (d : Fin 128), i = ix2 n d := ⟨i 0, i 1, eq_ix2 i⟩
  rw [layerK_apply, layerR_apply]
  obtain ⟨r, hr, hrn⟩ := hd (ix1 n)
  refine congrArg Ideal.tanh (congrArg (· + b (ix1 d)) ?_)
  rw [hrn, sum_mul_nonneg_real _ _ hr, ← hrn]
  refine Finset.sum_congr rfl fun j hj => ?_
  obtain ⟨e, q, rfl⟩ : ∃ (e : Fin 850000) (q : Fin 128), j = ix2 e q := ⟨j 0, j 1, eq_ix2 j⟩
  have hj' : (col (ix1 e)).toInt = (n.val : Int) ∧ q.val = d.val := (Finset.mem_filter.mp hj).2
  have htgt : tgtOf col e = n := by
    refine Fin.ext ?_
    show min ((broadcastInDim Cert.ReferenceIdeal.S850000x1 ![0] Cert.ReferenceIdeal.Facts₀.bcast_S850000_S850000x1_0
      (wrapR col)) (ix2 e 0)).toInt.toNat 49999 = n.val
    rw [bcastCol_apply, wrapR_of_nonneg col e (by rw [hj'.1]; omega), hj'.1]
    have := n.isLt
    omega
  show _ * dinv (ix1 (srcOf row e)) * dinv (ix1 n) = _ * (dinv (ix1 (srcOf row e)) * dinv (ix1 (tgtOf col e)))
  rw [htgt, mul_assoc]

end Cert.Spec

end
-- ==== Proof.PoolLaw.lean ====
import proofs.«414499_j137438954180_2_alg».proof.Proof.Spec
import Idealize.ShloMosaic.Lib.Pipeline.Value

noncomputable section

namespace Cert.Spec

open Idealize.ShloMosaic Idealize.ShloMosaic.ValueIdx

namespace PoolLaw

theorem ofBits_one_f32 : Ideal.ofBits .f32 0x3F800000#32 = 1 := IdealRules.sign_bit.ideal_onePat .f32

theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

theorem bcast_constant_apply {s t : Shape} {φ : FTy} (dims : Fin s.rank → Fin t.rank) (h : s.BroadcastsInDim t dims)
    (b : BitVec φ.bits) (j : t.Idx) : broadcastInDim t dims h (constant (F := Ideal) s φ b) j = Ideal.ofBits φ b := rfl

theorem zero_add_sum_one {ι : Type} (S : Finset ι) : ∃ n : ℕ, (0 : EReal) + ∑ j ∈ S, (1 : EReal) = ((n : ℝ) : EReal) :=
  ⟨S.card, by rw [zero_add, Finset.sum_const, ← EReal.coe_one, ← EReal.coe_nsmul, nsmul_eq_mul, mul_one]⟩

theorem cmpf_ideal_apply {s : Shape} {φ : FTy} (p : CmpFPredicate) (a b : FVec Ideal s φ) (i : s.Idx) :
    cmpf p a b i = Ideal.cmp p (a i) (b i) := rfl

theorem host_rsqrt_apply {s : Shape} {φ : FTy} (a : FVec Ideal s φ) (i : s.Idx) : Host.rsqrt a i = Ideal.rsqrt (a i) := rfl

theorem degK_nat (col : IVec Cert.KernelIdeal.S850000 32) (i : Cert.KernelIdeal.S50000.Idx) :
    ∃ n : ℕ, degK col i = ((n : ℝ) : EReal) := by
  unfold degK
  rw [scatterAdd_apply, bcast_constant_apply]
  simp only [bcast_constant_apply]
  rw [Ideal.ofBits_zero_f32, ofBits_one_f32]
  exact zero_add_sum_one _

theorem select_rsqrt_nonneg (n : ℕ) : ∃ r : ℝ, 0 ≤ r ∧
    Scalar.select (Ideal.cmp .ogt ((n : ℝ) : EReal) 0) (Ideal.rsqrt ((n : ℝ) : EReal)) (0 : EReal) = (r : EReal) := by
  by_cases h : (0 : ℝ) < (n : ℝ)
  · refine ⟨(Real.sqrt n)⁻¹, inv_nonneg.mpr (Real.sqrt_nonneg _), ?_⟩
    have hc : Ideal.cmp .ogt ((n : ℝ) : EReal) 0 = 1#1 := by
      have : (0 : EReal) < ((n : ℝ) : EReal) := EReal.coe_pos.mpr h
      simp only [Ideal.cmp, this, decide_true]; rfl
    rw [hc, select_one, Ideal.rsqrt_coe, if_neg (not_lt.mpr h.le), if_neg h.ne']
  · refine ⟨0, le_rfl, ?_⟩
    have hc : Ideal.cmp .ogt ((n : ℝ) : EReal) 0 = 0#1 := by
      have : ¬ (0 : EReal) < ((n : ℝ) : EReal) := fun h' => h (EReal.coe_pos.mp h')
      simp only [Ideal.cmp, this, decide_false]; rfl
    rw [hc, select_zero]; rfl

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hf a
      have hv := congrArg Fin.val (congrFun (Option.some.inj hf) a)
      have h0 := (h a).1
      simp only at hv
      omega
    · intro hi
      refine congrArg some (funext fun a => Fin.ext ?_)
      have := hi a
      show (d.start j idx a + (d.window j a : Int)).toNat = (i a).val
      omega
  · rename_i h
    constructor
    · intro hf; exact absurd hf (by simp)
    · intro hi
      refine absurd (fun a => ?_) h
      have := hi a; have := (i a).isLt
      constructor <;> omega

section PoolDims
open Cert.ReferenceIdeal Cert.ReferenceIdeal.Facts₀

theorem pool_start0 (idx : IVec S50000x1 32) (n : Fin 50000) (q : Fin 128) :
    scatter_S512x128_S50000x1_S50000x128_1_0_0_1.start (ix2 n q) idx 0 = (idx (ix2 n 0)).toInt := by
  unfold ScatterDims.start
  rw [dif_pos (show (0 : Fin 2) ∈ scatter_S512x128_S50000x1_S50000x128_1_0_0_1.scatterDimsToOperandDims from
    List.mem_singleton.mpr rfl)]
  refine congrArg (fun k => (idx k).toInt) (funext fun b => Fin.ext ?_)
  match b with
  | ⟨0, _⟩ => rfl
  | ⟨1, _⟩ => rfl

theorem pool_start1 (idx : IVec S50000x1 32) (n : Fin 50000) (q : Fin 128) :
    scatter_S512x128_S50000x1_S50000x128_1_0_0_1.start (ix2 n q) idx 1 = 0 := by
  unfold ScatterDims.start
  rw [dif_neg (show ¬ (1 : Fin 2) ∈ scatter_S512x128_S50000x1_S50000x128_1_0_0_1.scatterDimsToOperandDims by decide)]

theorem pool_window0 (n : Fin 50000) (q : Fin 128) :
    scatter_S512x128_S50000x1_S50000x128_1_0_0_1.window (ix2 n q) 0 = 0 := by
  unfold ScatterDims.window
  rw [dif_neg (show ¬ (0 : Fin 2) ∈ scatter_S512x128_S50000x1_S50000x128_1_0_0_1.sKept by decide)]

theorem pool_window1 (n : Fin 50000) (q : Fin 128) :
    scatter_S512x128_S50000x1_S50000x128_1_0_0_1.window (ix2 n q) 1 = q.val := by
  unfold ScatterDims.window
  rw [dif_pos (show (1 : Fin 2) ∈ scatter_S512x128_S50000x1_S50000x128_1_0_0_1.sKept by decide)]
  rfl

end PoolDims

theorem toInt_eq_iff (b : BitVec 32) (g : ℕ) (hg : g < 512) : b.toInt = (g : ℤ) ↔ b = BitVec.ofNat 32 g := by
  constructor
  · intro h
    rw [← BitVec.ofInt_toInt (x := b), h, BitVec.ofInt_natCast]
  · rintro rfl
    rw [BitVec.toInt_eq_toNat_cond, BitVec.toNat_ofNat]
    have : g % 2 ^ 32 = g := Nat.mod_eq_of_lt (by omega)
    rw [this]
    split <;> omega

section PoolReads
open Cert.ReferenceIdeal Cert.ReferenceIdeal.Facts₀

theorem bcast_col_apply (bt : IVec S50000 32) (n : Fin 50000) :
    broadcastInDim S50000x1 ![0] bcast_S50000_S50000x1_0 bt (ix2 n 0) = bt (ix1 n) := by
  refine broadcastInDim_apply _ _ _ _ (ix1 n) (fun a => ?_)
  match a with
  | ⟨0, _⟩ => rfl

theorem pool_lands (bt : IVec S50000 32) (n : Fin 50000) (q : Fin 128) (g : Fin 512) (d : Fin 128) :
    scatter_S512x128_S50000x1_S50000x128_1_0_0_1.resultIdx? (ix2 n q)
        (broadcastInDim S50000x1 ![0] bcast_S50000_S50000x1_0 bt) = some (ix2 g d)
      ↔ bt (ix1 n) = BitVec.ofNat 32 g.val ∧ q = d := by
  rw [resultIdx?_eq_some_iff, Fin.forall_fin_two, pool_start0, pool_start1, pool_window0, pool_window1, bcast_col_apply,
    ← toInt_eq_iff _ _ g.isLt]
  show (bt (ix1 n)).toInt + ((0 : ℕ) : ℤ) = (g.val : ℤ) ∧ (0 : ℤ) + (q.val : ℤ) = (d.val : ℤ) ↔ _
  constructor
  · rintro ⟨h0, h1⟩
    exact ⟨by omega, Fin.ext (by omega)⟩
  · rintro ⟨h0, rfl⟩
    exact ⟨by omega, by omega⟩

end PoolReads

section PoolCast
open Cert.KernelIdeal Cert.KernelIdeal.Facts₀

theorem cast_col_apply (bt : IVec S50000 32) (n : Fin 50000) :
    shapeCast S50000x1 bt shapeCasts_S50000_S50000x1 (ix2 n 0) = bt (ix1 n) := by
  refine shapeCast_apply _ _ _ (ix1 n) ?_
  rw [Shape.rowMajor_val_one, Shape.rowMajor_val_two]
  show n.val = n.val * 1 + 0
  omega

end PoolCast

theorem poolOut_apply (x : FVec Ideal Cert.KernelIdeal.S50000x128 .f32) (y : IVec Cert.KernelIdeal.S50000x1 32)
    (g : Fin 512) (d : Fin 128) :
    poolOut x y (ix2 g d)
      = ∑ n : Fin 50000, (if y (ix2 n 0) = BitVec.ofNat 32 g.val then (1 : EReal) else 0) * x (ix2 n d) := rfl

end PoolLaw

open PoolLaw

/-- A degree is a count, so its inverse square root (or the zero put in its place) is a non-negative real. -/
theorem dinvK_nonneg (col : IVec Cert.KernelIdeal.S850000 32) : NonnegReal (dinvK col) := by
  intro i
  obtain ⟨n, hn⟩ := degK_nat col i
  unfold dinvK
  rw [select_apply, cmpf_ideal_apply, host_rsqrt_apply, id_eq, bcast_constant_apply, hn, Ideal.ofBits_zero_f32]
  exact select_rsqrt_nonneg n

/-- Summing the rows whose graph is `g`, written as a product with the 0/1 membership of the nodes, is the scatter of every row to its graph's slot. -/
theorem pool_eq (x : FVec Ideal Cert.KernelIdeal.S50000x128 .f32) (bt : IVec Cert.KernelIdeal.S50000 32) :
    poolOut x (shapeCast _ bt Cert.KernelIdeal.Facts₀.shapeCasts_S50000_S50000x1) = poolR x bt := by
  funext i
  obtain ⟨g, d, rfl⟩ : ∃ (g : Fin 512) (d : Fin 128), i = ix2 g d := ⟨i 0, i 1, eq_ix2 i⟩
  rw [poolOut_apply]
  unfold poolR
  rw [scatterAdd_apply, bcast_constant_apply, Ideal.ofBits_zero_f32, zero_add, Finset.sum_filter, sum_idx2]
  refine Finset.sum_congr rfl fun n _ => ?_
  rw [cast_col_apply]
  trans ∑ q : Fin 128, if (bt (ix1 n) = BitVec.ofNat 32 g.val ∧ q = d) then x (ix2 n q) else 0
  · by_cases hb : bt (ix1 n) = BitVec.ofNat 32 g.val
    · simp only [hb, true_and, if_true, one_mul]
      rw [Finset.sum_ite_eq' Finset.univ d, if_pos (Finset.mem_univ d)]
    · simp only [hb, false_and, if_false, zero_mul, Finset.sum_const_zero]
  · exact Finset.sum_congr rfl fun q _ => (if_congr (pool_lands bt n q g d) rfl rfl).symm

end Cert.Spec

end
-- ==== Proof.NetLaw.lean ====
import proofs.«414499_j137438954180_2_alg».proof.Proof.Spec2
import proofs.«414499_j137438954180_2_alg».proof.Proof.LayerLaw
import proofs.«414499_j137438954180_2_alg».proof.Proof.PoolLaw

noncomputable section

namespace Cert.Spec

open Idealize.ShloMosaic

theorem rowK_eq (e : IVec Cert.KernelIdeal.S2x800000 32) : rowK e = rowR e := rfl
theorem colK_eq (e : IVec Cert.KernelIdeal.S2x800000 32) : colK e = colR e := rfl
theorem degK_eq (col : IVec Cert.KernelIdeal.S850000 32) : degK col = degR col := rfl
theorem dinvK_eq (col : IVec Cert.KernelIdeal.S850000 32) : dinvK col = dinvR col := by
  unfold dinvK dinvR; rw [degK_eq]
theorem cntK_eq (bt : IVec Cert.KernelIdeal.S50000 32) : cntK bt = cntR bt := rfl

theorem x1_eq (a : FVec Ideal Cert.KernelIdeal.S50000x128 .f32) (e : IVec Cert.KernelIdeal.S2x800000 32)
    (w0 : FVec Ideal Cert.KernelIdeal.S128x128 .f32) (b0 : FVec Ideal Cert.KernelIdeal.S128 .f32) :
    x1K a e w0 b0 = x1R a e w0 b0 := by
  unfold x1K x1R
  rw [layer_eq _ (dinvK_nonneg _), dinvK_eq, rowK_eq, colK_eq]

theorem x2_eq (a : FVec Ideal Cert.KernelIdeal.S50000x128 .f32) (e : IVec Cert.KernelIdeal.S2x800000 32)
    (w0 : FVec Ideal Cert.KernelIdeal.S128x128 .f32) (b0 : FVec Ideal Cert.KernelIdeal.S128 .f32)
    (w1 : FVec Ideal Cert.KernelIdeal.S128x128 .f32) (b1 : FVec Ideal Cert.KernelIdeal.S128 .f32) :
    x2K a e w0 b0 w1 b1 = x2R a e w0 b0 w1 b1 := by
  unfold x2K x2R
  rw [layer_eq _ (dinvK_nonneg _), dinvK_eq, rowK_eq, colK_eq, x1_eq]

theorem x3_eq (a : FVec Ideal Cert.KernelIdeal.S50000x128 .f32) (e : IVec Cert.KernelIdeal.S2x800000 32)
    (w0 : FVec Ideal Cert.KernelIdeal.S128x128 .f32) (b0 : FVec Ideal Cert.KernelIdeal.S128 .f32)
    (w1 : FVec Ideal Cert.KernelIdeal.S128x128 .f32) (b1 : FVec Ideal Cert.KernelIdeal.S128 .f32)
    (w2 : FVec Ideal Cert.KernelIdeal.S128x128 .f32) (b2 : FVec Ideal Cert.KernelIdeal.S128 .f32) :
    x3K a e w0 b0 w1 b1 w2 b2 = x3R a e w0 b0 w1 b1 w2 b2 := by
  unfold x3K x3R
  rw [layer_eq _ (dinvK_nonneg _), dinvK_eq, rowK_eq, colK_eq, x2_eq]

theorem mean_eq (x : FVec Ideal Cert.KernelIdeal.S50000x128 .f32) (bt : IVec Cert.KernelIdeal.S50000 32) :
    meanK x bt = meanR x bt := by
  unfold meanK meanR
  rw [pool_eq, cntK_eq]

end Cert.Spec

end
-- ==== Proof.lean ====
/- A three-layer graph convolution with mean pooling. The kernel program applies the two degree factors on the nodes, the
reference on every edge; over the extended reals they agree because the factor is a non-negative real, and the pooled
sums agree because a product with a 0/1 membership matrix is the sum over the members. -/
import proofs.«414499_j137438954180_2_alg».proof.Proof.KFrame
import proofs.«414499_j137438954180_2_alg».proof.Proof.KI.Results
import proofs.«414499_j137438954180_2_alg».proof.Proof.RefSide
import proofs.«414499_j137438954180_2_alg».proof.Proof.NetLaw
import Idealize.ShloMosaic.Adequacy
import Idealize.ShloMosaic.Init

noncomputable section

namespace Cert.Proof

open Idealize.ShloMosaic Idealize.ShloMosaic.TcCoe Idealize.SL.Sem

theorem frame_k : Cert.frame_Kernel := Cert.Kernel.Hand.frame
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2.2) (Cert.ReferenceIdeal.RefValue.ref_run m ρ)

set_option maxHeartbeats 4000000 in
theorem algebraic : Cert.algebraic_KernelIdeal_ReferenceIdeal := by
  intro m ρ m' ρ' _ hagree
  refine ⟨fun c => Cert.Spec.x3R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.meanR (Cert.Spec.x3R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2)),
    fun c => Cert.Spec.x1R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.x2R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.x3R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Hand.run_all (F := Ideal) m ρ)
    obtain ⟨r3, rm, r1, r2⟩ := Cert.KernelIdeal.Hand.results m c
    have hb := h c
    refine ⟨(hb _ (Cert.KernelIdeal.Hand.mem_uc Cert.KernelIdeal.main_v62 (by decide))).trans (r3.trans (Cert.Spec.x3_eq ..)),
      (hb _ (Cert.KernelIdeal.Hand.mem_uc Cert.KernelIdeal.main_v72 (by decide))).trans (rm.trans ((congrArg (fun x => Cert.Spec.meanK x _) (Cert.Spec.x3_eq ..)).trans (Cert.Spec.mean_eq ..))),
      (hb _ (Cert.KernelIdeal.Hand.mem_uc Cert.KernelIdeal.main_v30 (by decide))).trans (r1.trans (Cert.Spec.x1_eq ..)),
      (hb _ (Cert.KernelIdeal.Hand.mem_uc Cert.KernelIdeal.main_v46 (by decide))).trans (r2.trans (Cert.Spec.x2_eq ..)),
      (hb _ (Cert.KernelIdeal.Hand.mem_uc Cert.KernelIdeal.main_v62 (by decide))).trans (r3.trans (Cert.Spec.x3_eq ..)),
      Cert.KernelIdeal.Hand.args_kept m r.2.mem h c⟩
  · refine (θ_run Cert.ReferenceIdeal.defs _ _).mono (fun r h c => ?_) (Cert.ReferenceIdeal.RefValue.ref_run m' ρ')
    obtain ⟨e0, e1, e2, e3, e4, e5, e6, e7, e8⟩ := hagree c
    obtain ⟨q3, qm, q1, q2, qa⟩ := h c
    refine ⟨?_, ?_, ?_, ?_, ?_, qa⟩
    · rw [q3, e0, e1, e3, e4, e5, e6, e7, e8]
    · rw [qm, e0, e1, e2, e3, e4, e5, e6, e7, e8]
    · rw [q1, e0, e1, e3, e4]
    · rw [q2, e0, e1, e3, e4, e5, e6]
    · rw [q3, e0, e1, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
